-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x43 : Shape := ⟨2, ![100000, 43]⟩
abbrev S2x1600000 : Shape := ⟨2, ![2, 1600000]⟩
abbrev S100000 : Shape := ⟨1, ![100000]⟩
abbrev S5x43x43 : Shape := ⟨3, ![5, 43, 43]⟩
abbrev S129x43 : Shape := ⟨2, ![129, 43]⟩
abbrev S129 : Shape := ⟨1, ![129]⟩
abbrev S392x43 : Shape := ⟨2, ![392, 43]⟩
abbrev S392 : Shape := ⟨1, ![392]⟩
abbrev S392x392 : Shape := ⟨2, ![392, 392]⟩
abbrev S138x392 : Shape := ⟨2, ![138, 392]⟩
abbrev S138 : Shape := ⟨1, ![138]⟩
abbrev S_ : Shape := ⟨0, ![]⟩
abbrev S1x1600000 : Shape := ⟨2, ![1, 1600000]⟩
abbrev S1600000 : Shape := ⟨1, ![1600000]⟩

class Facts : Prop where
  bcast_S_S100000x43 : S_.BroadcastsInDim S100000x43 (![] : Fin 0 → Fin S100000x43.rank)
  reducesTo_S100000x43_S_d0_1 : S100000x43.ReducesTo [0, 1] S_
  h_S_ : 0 < S_.numel
  bcast_S_S5x43x43 : S_.BroadcastsInDim S5x43x43 (![] : Fin 0 → Fin S5x43x43.rank)
  reducesTo_S5x43x43_S_d0_1_2 : S5x43x43.ReducesTo [0, 1, 2] S_
  bcast_S_S129x43 : S_.BroadcastsInDim S129x43 (![] : Fin 0 → Fin S129x43.rank)
  reducesTo_S129x43_S_d0_1 : S129x43.ReducesTo [0, 1] S_
  bcast_S_S129 : S_.BroadcastsInDim S129 (![] : Fin 0 → Fin S129.rank)
  reducesTo_S129_S_d0 : S129.ReducesTo [0] S_
  bcast_S_S392x43 : S_.BroadcastsInDim S392x43 (![] : Fin 0 → Fin S392x43.rank)
  reducesTo_S392x43_S_d0_1 : S392x43.ReducesTo [0, 1] S_
  bcast_S_S392 : S_.BroadcastsInDim S392 (![] : Fin 0 → Fin S392.rank)
  reducesTo_S392_S_d0 : S392.ReducesTo [0] S_
  bcast_S_S392x392 : S_.BroadcastsInDim S392x392 (![] : Fin 0 → Fin S392x392.rank)
  reducesTo_S392x392_S_d0_1 : S392x392.ReducesTo [0, 1] S_
  bcast_S_S138x392 : S_.BroadcastsInDim S138x392 (![] : Fin 0 → Fin S138x392.rank)
  reducesTo_S138x392_S_d0_1 : S138x392.ReducesTo [0, 1] S_
  bcast_S_S138 : S_.BroadcastsInDim S138 (![] : Fin 0 → Fin S138.rank)
  reducesTo_S138_S_d0 : S138.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_v63 : IVec S_ 1) (main_v67 : IVec S_ 1) : IVec S_ 1 :=
  let main_v68 : IVec S_ 1 := andi main_v63 main_v67
  let main_v69 : IVec S1x1600000 32 := (extractStridedSlice S1x1600000 ![0, 0] · slices_S2x1600000_S1x1600000_0_0) main_arg1
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_v73 : IVec S1x1600000 32 := (extractStridedSlice S1x1600000 ![0, 0] · slices_S2x1600000_S1x1600000_0_0) main_arg1
  let main_v74 : IVec S1600000 32 := shapeCast S1600000 main_v73 shapeCasts_S1x1600000_S1600000
  let main_c_27 : IVec S_ 32 := constantI S_ 32 100000#32
  let main_v75 : IVec S1600000 32 := broadcastInDim S1600000 ![] bcast_S_S1600000 main_c_27
  let main_v76 : IVec S1600000 1 := cmpi .slt main_v74 main_v75
  let main_v77 : IVec S1600000 1 := andi main_v72 main_v76
  let main_c_28 : IVec S_ 1 := constantI S_ 1 1#1
  let main_v78 : IVec S_ 1 := (fun x v => Host.reduce IntOp.andi x v reducesTo_S1600000_S_d0 h_S_) main_v77 main_c_28
  let main_v79 : IVec S_ 1 := andi main_v68 main_v78
  main_v79

def fn_part3 {F : FTy → Type} [FloatOps F] (main_arg1 : IVec S2x1600000 32) (main_arg13 : FVec F S392 .f32) (main_arg14 : FVec F S138x392 .f32) (main_arg15 : FVec F S138 .f32) (main_v48 : IVec S_ 1) (main_v49 : FVec F S392x392 .f32) (main_v50 : FVec F S392x392 .f32) : IVec S_ 1 :=
  let main_v51 : IVec S392x392 1 := cmpf .olt main_v49 main_v50
  let main_c_19 : IVec S_ 1 := constantI S_ 1 1#1
  let main_v52 : IVec S_ 1 := (fun x v => Host.reduce IntOp.andi x v reducesTo_S392x392_S_d0_1 h_S_) main_v51 main_c_19
  let main_v53 : IVec S_ 1 := andi main_v48 main_v52
  let main_v54 : FVec F S392 .f32 := Host.absf main_arg13
  let main_cst_20 : FVec F S_ .f32 := constant S_ .f32 0x7F800000#32
  let main_v55 : FVec F S392 .f32 := broadcastInDim S392 ![] bcast_S_S392 main_cst_20
  let main_v56 : IVec S392 1 := cmpf .olt main_v54 main_v55
  let main_c_21 : IVec S_ 1 := constantI S_ 1 1#1
  let main_v57 : IVec S_ 1 := (fun x v => Host.reduce IntOp.andi x v reducesTo_S392_S_d0 h_S_) main_v56 main_c_21
  let main_v58 : IVec S_ 1 := andi main_v53 main_v57
  let main_v59 : FVec F S138x392 .f32 := Host.absf main_arg14
  let main_cst_22 : FVec F S_ .f32 := constant S_ .f32 0x7F800000#32
  let main_v60 : FVec F S138x392 .f32 := broadcastInDim S138x392 ![] bcast_S_S138x392 main_cst_22
  let main_v61 : IVec S138x392 1 := cmpf .olt main_v59 main_v60
  let main_c_23 : IVec S_ 1 := constantI S_ 1 1#1
  let main_v62 : IVec S_ 1 := (fun x v => Host.reduce IntOp.andi x v reducesTo_S138x392_S_d0_1 h_S_) main_v61 main_c_23
  let main_v63 : IVec S_ 1 := andi main_v58 main_v62
  let main_v64 : FVec F S138 .f32 := Host.absf main_arg15
  let main_cst_24 : FVec F S_ .f32 := constant S_ .f32 0x7F800000#32
  let main_v65 : FVec F S138 .f32 := broadcastInDim S138 ![] bcast_S_S138 main_cst_24
  let main_v66 : IVec S138 1 := cmpf .olt main_v64 main_v65
  let main_c_25 : IVec S_ 1 := constantI S_ 1 1#1
  let main_v67 : IVec S_ 1 := (fun x v => Host.reduce IntOp.andi x v reducesTo_S138_S_d0 h_S_) main_v66 main_c_25
  fn_part4 (F := F) main_arg1 main_v63 main_v67

def fn_part2 {F : FTy → Type} [FloatOps F] (main_arg1 : IVec S2x1600000 32) (main_arg9 : FVec F S392 .f32) (main_arg10 : FVec F S392x392 .f32) (main_arg11 : FVec F S392 .f32) (main_arg12 : FVec F S392x392 .f32) (main_arg13 : FVec F S392 .f32) (main_arg14 : FVec F S138x392 .f32) (main_arg15 : FVec F S138 .f32) (main_v33 : IVec S_ 1) : IVec S_ 1 :=
  let main_v34 : FVec F S392 .f32 := Host.absf main_arg9
  let main_cst_12 : FVec F S_ .f32 := constant S_ .f32 0x7F800000#32
  let main_v35 : FVec F S392 .f32 := broadcastInDim S392 ![] bcast_S_S392 main_cst_12
  let main_v36 : IVec S392 1 := cmpf .olt main_v34 main_v35
  let main_c_13 : IVec S_ 1 := constantI S_ 1 1#1
  let main_v37 : IVec S_ 1 := (fun x v => Host.reduce IntOp.andi x v reducesTo_S392_S_d0 h_S_) main_v36 main_c_13
  let main_v38 : IVec S_ 1 := andi main_v33 main_v37
  let main_v39 : FVec F S392x392 .f32 := Host.absf main_arg10
  let main_cst_14 : FVec F S_ .f32 := constant S_ .f32 0x7F800000#32
  let main_v40 : FVec F S392x392 .f32 := broadcastInDim S392x392 ![] bcast_S_S392x392 main_cst_14
  let main_v41 : IVec S392x392 1 := cmpf .olt main_v39 main_v40
  let main_c_15 : IVec S_ 1 := constantI S_ 1 1#1
  let main_v42 : IVec S_ 1 := (fun x v => Host.reduce IntOp.andi x v reducesTo_S392x392_S_d0_1 h_S_) main_v41 main_c_15
  let main_v43 : IVec S_ 1 := andi main_v38 main_v42
  let main_v44 : FVec F S392 .f32 := Host.absf main_arg11
  let main_cst_16 : FVec F S_ .f32 := constant S_ .f32 0x7F800000#32
  let main_v45 : FVec F S392 .f32 := broadcastInDim S392 ![] bcast_S_S392 main_cst_16
  let main_v46 : IVec S392 1 := cmpf .olt main_v44 main_v45
  let main_c_17 : IVec S_ 1 := constantI S_ 1 1#1
  let main_v47 : IVec S_ 1 := (fun x v => Host.reduce IntOp.andi x v reducesTo_S392_S_d0 h_S_) main_v46 main_c_17
  let main_v48 : IVec S_ 1 := andi main_v43 main_v47
  let main_v49 : FVec F S392x392 .f32 := Host.absf main_arg12
  let main_cst_18 : FVec F S_ .f32 := constant S_ .f32 0x7F800000#32
  let main_v50 : FVec F S392x392 .f32 := broadcastInDim S392x392 ![] bcast_S_S392x392 main_cst_18
  fn_part3 (F := F) main_arg1 main_arg13 main_arg14 main_arg15 main_v48 main_v49 main_v50

def fn_part1 {F : FTy → Type} [FloatOps F] (main_arg1 : IVec S2x1600000 32) (main_arg6 : FVec F S129 .f32) (main_arg7 : FVec F S129 .f32) (main_arg8 : FVec F S392x43 .f32) (main_arg9 : FVec F S392 .f32) (main_arg10 : FVec F S392x392 .f32) (main_arg11 : FVec F S392 .f32) (main_arg12 : FVec F S392x392 .f32) (main_arg13 : FVec F S392 .f32) (main_arg14 : FVec F S138x392 .f32) (main_arg15 : FVec F S138 .f32) (main_v13 : IVec S_ 1) (main_v16 : IVec S129x43 1) : IVec S_ 1 :=
  let main_c_5 : IVec S_ 1 := constantI S_ 1 1#1
  let main_v17 : IVec S_ 1 := (fun x v => Host.reduce IntOp.andi x v reducesTo_S129x43_S_d0_1 h_S_) main_v16 main_c_5
  let main_v18 : IVec S_ 1 := andi main_v13 main_v17
  let main_v19 : FVec F S129 .f32 := Host.absf main_arg6
  let main_cst_6 : FVec F S_ .f32 := constant S_ .f32 0x7F800000#32
  let main_v20 : FVec F S129 .f32 := broadcastInDim S129 ![] bcast_S_S129 main_cst_6
  let main_v21 : IVec S129 1 := cmpf .olt main_v19 main_v20
  let main_c_7 : IVec S_ 1 := constantI S_ 1 1#1
  let main_v22 : IVec S_ 1 := (fun x v => Host.reduce IntOp.andi x v reducesTo_S129_S_d0 h_S_) main_v21 main_c_7
  let main_v23 : IVec S_ 1 := andi main_v18 main_v22
  let main_v24 : FVec F S129 .f32 := Host.absf main_arg7
  let main_cst_8 : FVec F S_ .f32 := constant S_ .f32 0x7F800000#32
  let main_v25 : FVec F S129 .f32 := broadcastInDim S129 ![] bcast_S_S129 main_cst_8
  let main_v26 : IVec S129 1 := cmpf .olt main_v24 main_v25
  let main_c_9 : IVec S_ 1 := constantI S_ 1 1#1
  let main_v27 : IVec S_ 1 := (fun x v => Host.reduce IntOp.andi x v reducesTo_S129_S_d0 h_S_) main_v26 main_c_9
  let main_v28 : IVec S_ 1 := andi main_v23 main_v27
  let main_v29 : FVec F S392x43 .f32 := Host.absf main_arg8
  let main_cst_10 : FVec F S_ .f32 := constant S_ .f32 0x7F800000#32
  let main_v30 : FVec F S392x43 .f32 := broadcastInDim S392x43 ![] bcast_S_S392x43 main_cst_10
  let main_v31 : IVec S392x43 1 := cmpf .olt main_v29 main_v30
  let main_c_11 : IVec S_ 1 := constantI S_ 1 1#1
  let main_v32 : IVec S_ 1 := (fun x v => Host.reduce IntOp.andi x v reducesTo_S392x43_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S100000x43 .f32) (main_arg1 : IVec S2x1600000 32) (main_arg2 : IVec S100000 32) (main_arg3 : FVec F S5x43x43 .f32) (main_arg4 : FVec F S129x43 .f32) (main_arg5 : FVec F S129x43 .f32) (main_arg6 : FVec F S129 .f32) (main_arg7 : FVec F S129 .f32) (main_arg8 : FVec F S392x43 .f32) (main_arg9 : FVec F S392 .f32) (main_arg10 : FVec F S392x392 .f32) (main_arg11 : FVec F S392 .f32) (main_arg12 : FVec F S392x392 .f32) (main_arg13 : FVec F S392 .f32) (main_arg14 : FVec F S138x392 .f32) (main_arg15 : FVec F S138 .f32) : IVec S_ 1 :=
  let main_v0 : FVec F S100000x43 .f32 := Host.absf main_arg0
  let main_cst : FVec F S_ .f32 := constant S_ .f32 0x7F800000#32
  let main_v1 : FVec F S100000x43 .f32 := broadcastInDim S100000x43 ![] bcast_S_S100000x43 main_cst
  let main_v2 : IVec S100000x43 1 := cmpf .olt main_v0 main_v1
  let main_c : IVec S_ 1 := constantI S_ 1 1#1
  let main_v3 : IVec S_ 1 := (fun x v => Host.reduce IntOp.andi x v reducesTo_S100000x43_S_d0_1 h_S_) main_v2 main_c
  let main_v4 : FVec F S5x43x43 .f32 := Host.absf main_arg3
  let main_cst_0 : FVec F S_ .f32 := constant S_ .f32 0x7F800000#32
  let main_v5 : FVec F S5x43x43 .f32 := broadcastInDim S5x43x43 ![] bcast_S_S5x43x43 main_cst_0
  let main_v6 : IVec S5x43x43 1 := cmpf .olt main_v4 main_v5
  let main_c_1 : IVec S_ 1 := constantI S_ 1 1#1
  let main_v7 : IVec S_ 1 := (fun x v => Host.reduce IntOp.andi x v reducesTo_S5x43x43_S_d0_1_2 h_S_) main_v6 main_c_1
  let main_v8 : IVec S_ 1 := andi main_v3 main_v7
  let main_v9 : FVec F S129x43 .f32 := Host.absf main_arg4
  let main_cst_2 : FVec F S_ .f32 := constant S_ .f32 0x7F800000#32
  let main_v10 : FVec F S129x43 .f32 := broadcastInDim S129x43 ![] bcast_S_S129x43 main_cst_2
  let main_v11 : IVec S129x43 1 := cmpf .olt main_v9 main_v10
  let main_c_3 : IVec S_ 1 := constantI S_ 1 1#1
  let main_v12 : IVec S_ 1 := (fun x v => Host.reduce IntOp.andi x v reducesTo_S129x43_S_d0_1 h_S_) main_v11 main_c_3
  let main_v13 : IVec S_ 1 := andi main_v8 main_v12
  let main_v14 : FVec F S129x43 .f32 := Host.absf main_arg5
  let main_cst_4 : FVec F S_ .f32 := constant S_ .f32 0x7F800000#32
  let main_v15 : FVec F S129x43 .f32 := broadcastInDim S129x43 ![] bcast_S_S129x43 main_cst_4
  let main_v16 : IVec S129x43 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S100000x43 : Shape := ⟨2, ![100000, 43]⟩
abbrev S2x1600000 : Shape := ⟨2, ![2, 1600000]⟩
abbrev S100000 : Shape := ⟨1, ![100000]⟩
abbrev S5x43x43 : Shape := ⟨3, ![5, 43, 43]⟩
abbrev S129x43 : Shape := ⟨2, ![129, 43]⟩
abbrev S129 : Shape := ⟨1, ![129]⟩
abbrev S392x43 : Shape := ⟨2, ![392, 43]⟩
abbrev S392 : Shape := ⟨1, ![392]⟩
abbrev S392x392 : Shape := ⟨2, ![392, 392]⟩
abbrev S138x392 : Shape := ⟨2, ![138, 392]⟩
abbrev S138 : Shape := ⟨1, ![138]⟩
abbrev S1x1600000 : Shape := ⟨2, ![1, 1600000]⟩
abbrev S1600000 : Shape := ⟨1, ![1600000]⟩
abbrev S43x129 : Shape := ⟨2, ![43, 129]⟩
abbrev S1x43x43 : Shape := ⟨3, ![1, 43, 43]⟩
abbrev S43x43 : Shape := ⟨2, ![43, 43]⟩
abbrev S5000x43 : Shape := ⟨2, ![5000, 43]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x43 : Shape := ⟨2, ![1600000, 43]⟩
abbrev S1x129 : Shape := ⟨2, ![1, 129]⟩
abbrev S5000x129 : Shape := ⟨2, ![5000, 129]⟩
abbrev S2048x43 : Shape := ⟨2, ![2048, 43]⟩
abbrev S100000x1 : Shape := ⟨2, ![100000, 1]⟩
abbrev S43x392 : Shape := ⟨2, ![43, 392]⟩
abbrev S392x138 : Shape := ⟨2, ![392, 138]⟩
abbrev S1x392 : Shape := ⟨2, ![1, 392]⟩
abbrev S1x138 : Shape := ⟨2, ![1, 138]⟩
abbrev S2048x138 : Shape := ⟨2, ![2048, 138]⟩
abbrev S512x43 : Shape := ⟨2, ![512, 43]⟩
abbrev S512x138 : Shape := ⟨2, ![512, 138]⟩
abbrev S512x392 : Shape := ⟨2, ![512, 392]⟩

abbrev nBuf : Space → Nat
  | .hbm => 235
  | .vmem => 87
  | .smem => 0
  | _ => 0

abbrev hbmTy0_0 (i : Nat) : BufTy := match i % 128 with
  | 0 => ⟨S100000x43, .f32⟩
  | 1 => ⟨S2x1600000, .i32⟩
  | 2 => ⟨S100000, .i32⟩
  | 3 => ⟨S5x43x43, .f32⟩
  | 4 => ⟨S129x43, .f32⟩
  | 5 => ⟨S129x43, .f32⟩
  | 6 => ⟨S129, .f32⟩
  | 7 => ⟨S129, .f32⟩
  | 8 => ⟨S392x43, .f32⟩
  | 9 => ⟨S392, .f32⟩
  | 10 => ⟨S392x392, .f32⟩
  | 11 => ⟨S392, .f32⟩
  | 12 => ⟨S392x392, .f32⟩
  | 13 => ⟨S392, .f32⟩
  | 14 => ⟨S138x392, .f32⟩
  | 15 => ⟨S138, .f32⟩
  | 16 => ⟨S1x1600000, .i32⟩
  | 17 => ⟨S1600000, .i32⟩
  | 18 => ⟨S1x1600000, .i32⟩
  | 19 => ⟨S1600000, .i32⟩
  | 20 => ⟨S43x129, .f32⟩
  | 21 => ⟨S43x129, .f32⟩
  | 22 => ⟨S1x43x43, .f32⟩
  | 23 => ⟨S43x43, .f32⟩
  | 24 => ⟨S100000x43, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1, .i32⟩
  | 34 => ⟨S_, .i32⟩
  | 35 => ⟨S1600000x1, .i32⟩
  | 36 => ⟨S1600000x1, .i1⟩
  | 37 => ⟨S1x1, .i32⟩
  | 38 => ⟨S1600000x1, .i32⟩
  | 39 => ⟨S1600000x1, .i1⟩
  | 40 => ⟨S1600000x1, .i1⟩
  | 41 => ⟨S_, .i1⟩
  | 42 => ⟨S1600000, .i1⟩
  | 43 => ⟨S1600000x43, .f32⟩
  | 44 => ⟨S1600000x43, .i1⟩
  | 45 => ⟨S_, .f32⟩
  | 46 => ⟨S1600000x43, .f32⟩
  | 47 => ⟨S1600000x43, .f32⟩
  | 48 => ⟨S_, .f32⟩
  | 49 => ⟨S100000x43, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S100000x43, .f32⟩
  | 59 => ⟨S1x129, .f32⟩
  | 60 => ⟨S1x129, .f32⟩
  | 61 => ⟨S100000x43, .f32⟩
  | 62 => ⟨S1x43x43, .f32⟩
  | 63 => ⟨S43x43, .f32⟩
  | 64 => ⟨S100000x43, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1, .i32⟩
  | 74 => ⟨S_, .i32⟩
  | 75 => ⟨S1600000x1, .i32⟩
  | 76 => ⟨S1600000x1, .i1⟩
  | 77 => ⟨S1x1, .i32⟩
  | 78 => ⟨S1600000x1, .i32⟩
  | 79 => ⟨S1600000x1, .i1⟩
  | 80 => ⟨S1600000x1, .i1⟩
  | 81 => ⟨S_, .i1⟩
  | 82 => ⟨S1600000, .i1⟩
  | 83 => ⟨S1600000x43, .f32⟩
  | 84 => ⟨S1600000x43, .i1⟩
  | 85 => ⟨S_, .f32⟩
  | 86 => ⟨S1600000x43, .f32⟩
  | 87 => ⟨S1600000x43, .f32⟩
  | 88 => ⟨S_, .f32⟩
  | 89 => ⟨S100000x43, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S100000x43, .f32⟩
  | 99 => ⟨S1x129, .f32⟩
  | 100 => ⟨S1x129, .f32⟩
  | 101 => ⟨S100000x43, .f32⟩
  | 102 => ⟨S1x43x43, .f32⟩
  | 103 => ⟨S43x43, .f32⟩
  | 104 => ⟨S100000x43, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x43, .f32⟩
  | 124 => ⟨S1600000x43, .i1⟩
  | 125 => ⟨S_, .f32⟩
  | 126 => ⟨S1600000x43, .f32⟩
  | 127 => ⟨S1600000x43, .f32⟩
  | _ => ⟨S100000x43, .f32⟩

abbrev hbmTy0_1 (i : Nat) : BufTy := match i % 128 with
  | 0 => ⟨S_, .f32⟩
  | 1 => ⟨S100000x43, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S100000x43, .f32⟩
  | 11 => ⟨S1x129, .f32⟩
  | 12 => ⟨S1x129, .f32⟩
  | 13 => ⟨S100000x43, .f32⟩
  | 14 => ⟨S1x43x43, .f32⟩
  | 15 => ⟨S43x43, .f32⟩
  | 16 => ⟨S100000x43, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x43, .f32⟩
  | 36 => ⟨S1600000x43, .i1⟩
  | 37 => ⟨S_, .f32⟩
  | 38 => ⟨S1600000x43, .f32⟩
  | 39 => ⟨S1600000x43, .f32⟩
  | 40 => ⟨S_, .f32⟩
  | 41 => ⟨S100000x43, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S100000x43, .f32⟩
  | 51 => ⟨S1x129, .f32⟩
  | 52 => ⟨S1x129, .f32⟩
  | 53 => ⟨S100000x43, .f32⟩
  | 54 => ⟨S1x43x43, .f32⟩
  | 55 => ⟨S43x43, .f32⟩
  | 56 => ⟨S100000x43, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1, .i32⟩
  | 66 => ⟨S_, .i32⟩
  | 67 => ⟨S1600000x1, .i32⟩
  | 68 => ⟨S1600000x1, .i1⟩
  | 69 => ⟨S1x1, .i32⟩
  | 70 => ⟨S1600000x1, .i32⟩
  | 71 => ⟨S1600000x1, .i1⟩
  | 72 => ⟨S1600000x1, .i1⟩
  | 73 => ⟨S_, .i1⟩
  | 74 => ⟨S1600000, .i1⟩
  | 75 => ⟨S1600000x43, .f32⟩
  | 76 => ⟨S1600000x43, .i1⟩
  | 77 => ⟨S_, .f32⟩
  | 78 => ⟨S1600000x43, .f32⟩
  | 79 => ⟨S1600000x43, .f32⟩
  | 80 => ⟨S_, .f32⟩
  | 81 => ⟨S100000x43, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S100000x43, .f32⟩
  | 91 => ⟨S1x129, .f32⟩
  | 92 => ⟨S1x129, .f32⟩
  | 93 => ⟨S100000x43, .f32⟩
  | 94 => ⟨S_, .f32⟩
  | 95 => ⟨S2048x43, .f32⟩
  | 96 => ⟨S100000x1, .i32⟩
  | 97 => ⟨S2048x43, .f32⟩
  | 98 => ⟨S43x392, .f32⟩
  | 99 => ⟨S392x392, .f32⟩
  | 100 => ⟨S392x392, .f32⟩
  | 101 => ⟨S392x138, .f32⟩
  | 102 => ⟨S1x392, .f32⟩
  | 103 => ⟨S1x392, .f32⟩
  | 104 => ⟨S1x392, .f32⟩
  | 105 => ⟨S1x138, .f32⟩
  | 106 => ⟨S2048x138, .f32⟩
  | _ => ⟨S100000x43, .f32⟩

abbrev hbmTy (i : Nat) : BufTy := match i / 128 with
  | 0 => hbmTy0_0 i
  | 1 => hbmTy0_1 i
  | _ => ⟨S100000x43, .f32⟩

abbrev bufTy : (tb : Table) → Fin (tcTables nBuf tb) → BufTy
  | .hbm, ⟨i, _⟩ => hbmTy i
  | .local _ .vmem, ⟨0, _⟩ => ⟨S5000x43, .f32⟩
  | .local _ .vmem, ⟨1, _⟩ => ⟨S5000x43, .f32⟩
  | .local _ .vmem, ⟨2, _⟩ => ⟨S43x43, .f32⟩
  | .local _ .vmem, ⟨3, _⟩ => ⟨S5000x43, .f32⟩
  | .local _ .vmem, ⟨4, _⟩ => ⟨S5000x43, .f32⟩
  | .local _ .vmem, ⟨5, _⟩ => ⟨S5000x43, .f32⟩
  | .local _ .vmem, ⟨6, _⟩ => ⟨S5000x43, .f32⟩
  | .local _ .vmem, ⟨7, _⟩ => ⟨S5000x43, .f32⟩
  | .local _ .vmem, ⟨8, _⟩ => ⟨S5000x43, .f32⟩
  | .local _ .vmem, ⟨9, _⟩ => ⟨S43x129, .f32⟩
  | .local _ .vmem, ⟨10, _⟩ => ⟨S43x129, .f32⟩
  | .local _ .vmem, ⟨11, _⟩ => ⟨S1x129, .f32⟩
  | .local _ .vmem, ⟨12, _⟩ => ⟨S1x129, .f32⟩
  | .local _ .vmem, ⟨13, _⟩ => ⟨S5000x43, .f32⟩
  | .local _ .vmem, ⟨14, _⟩ => ⟨S5000x43, .f32⟩
  | .local _ .vmem, ⟨15, _⟩ => ⟨S5000x43, .f32⟩
  | .local _ .vmem, ⟨16, _⟩ => ⟨S5000x43, .f32⟩
  | .local _ .vmem, ⟨17, _⟩ => ⟨S43x43, .f32⟩
  | .local _ .vmem, ⟨18, _⟩ => ⟨S5000x43, .f32⟩
  | .local _ .vmem, ⟨19, _⟩ => ⟨S5000x43, .f32⟩
  | .local _ .vmem, ⟨20, _⟩ => ⟨S5000x43, .f32⟩
  | .local _ .vmem, ⟨21, _⟩ => ⟨S5000x43, .f32⟩
  | .local _ .vmem, ⟨22, _⟩ => ⟨S5000x43, .f32⟩
  | .local _ .vmem, ⟨23, _⟩ => ⟨S5000x43, .f32⟩
  | .local _ .vmem, ⟨24, _⟩ => ⟨S43x129, .f32⟩
  | .local _ .vmem, ⟨25, _⟩ => ⟨S43x129, .f32⟩
  | .local _ .vmem, ⟨26, _⟩ => ⟨S1x129, .f32⟩
  | .local _ .vmem, ⟨27, _⟩ => ⟨S1x129, .f32⟩
  | .local _ .vmem, ⟨28, _⟩ => ⟨S5000x43, .f32⟩
  | .local _ .vmem, ⟨29, _⟩ => ⟨S5000x43, .f32⟩
  | .local _ .vmem, ⟨30, _⟩ => ⟨S5000x43, .f32⟩
  | .local _ .vmem, ⟨31, _⟩ => ⟨S5000x43, .f32⟩
  | .local _ .vmem, ⟨32, _⟩ => ⟨S43x43, .f32⟩
  | .local _ .vmem, ⟨33, _⟩ => ⟨S5000x43, .f32⟩
  | .local _ .vmem, ⟨34, _⟩ => ⟨S5000x43, .f32⟩
  | .local _ .vmem, ⟨35, _⟩ => ⟨S5000x43, .f32⟩
  | .local _ .vmem, ⟨36, _⟩ => ⟨S5000x43, .f32⟩
  | .local _ .vmem, ⟨37, _⟩ => ⟨S5000x43, .f32⟩
  | .local _ .vmem, ⟨38, _⟩ => ⟨S5000x43, .f32⟩
  | .local _ .vmem, ⟨39, _⟩ => ⟨S43x129, .f32⟩
  | .local _ .vmem, ⟨40, _⟩ => ⟨S43x129, .f32⟩
  | .local _ .vmem, ⟨41, _⟩ => ⟨S1x129, .f32⟩
  | .local _ .vmem, ⟨42, _⟩ => ⟨S1x129, .f32⟩
  | .local _ .vmem, ⟨43, _⟩ => ⟨S5000x43, .f32⟩
  | .local _ .vmem, ⟨44, _⟩ => ⟨S5000x43, .f32⟩
  | .local _ .vmem, ⟨45, _⟩ => ⟨S5000x43, .f32⟩
  | .local _ .vmem, ⟨46, _⟩ => ⟨S5000x43, .f32⟩
  | .local _ .vmem, ⟨47, _⟩ => ⟨S43x43, .f32⟩
  | .local _ .vmem, ⟨48, _⟩ => ⟨S5000x43, .f32⟩
  | .local _ .vmem, ⟨49, _⟩ => ⟨S5000x43, .f32⟩
  | .local _ .vmem, ⟨50, _⟩ => ⟨S5000x43, .f32⟩
  | .local _ .vmem, ⟨51, _⟩ => ⟨S5000x43, .f32⟩
  | .local _ .vmem, ⟨52, _⟩ => ⟨S5000x43, .f32⟩
  | .local _ .vmem, ⟨53, _⟩ => ⟨S5000x43, .f32⟩
  | .local _ .vmem, ⟨54, _⟩ => ⟨S43x129, .f32⟩
  | .local _ .vmem, ⟨55, _⟩ => ⟨S43x129, .f32⟩
  | .local _ .vmem, ⟨56, _⟩ => ⟨S1x129, .f32⟩
  | .local _ .vmem, ⟨57, _⟩ => ⟨S1x129, .f32⟩
  | .local _ .vmem, ⟨58, _⟩ => ⟨S5000x43, .f32⟩
  | .local _ .vmem, ⟨59, _⟩ => ⟨S5000x43, .f32⟩
  | .local _ .vmem, ⟨60, _⟩ => ⟨S5000x43, .f32⟩
  | .local _ .vmem, ⟨61, _⟩ => ⟨S5000x43, .f32⟩
  | .local _ .vmem, ⟨62, _⟩ => ⟨S43x43, .f32⟩
  | .local _ .vmem, ⟨63, _⟩ => ⟨S5000x43, .f32⟩
  | .local _ .vmem, ⟨64, _⟩ => ⟨S5000x43, .f32⟩
  | .local _ .vmem, ⟨65, _⟩ => ⟨S5000x43, .f32⟩
  | .local _ .vmem, ⟨66, _⟩ => ⟨S5000x43, .f32⟩
  | .local _ .vmem, ⟨67, _⟩ => ⟨S5000x43, .f32⟩
  | .local _ .vmem, ⟨68, _⟩ => ⟨S5000x43, .f32⟩
  | .local _ .vmem, ⟨69, _⟩ => ⟨S43x129, .f32⟩
  | .local _ .vmem, ⟨70, _⟩ => ⟨S43x129, .f32⟩
  | .local _ .vmem, ⟨71, _⟩ => ⟨S1x129, .f32⟩
  | .local _ .vmem, ⟨72, _⟩ => ⟨S1x129, .f32⟩
  | .local _ .vmem, ⟨73, _⟩ => ⟨S5000x43, .f32⟩
  | .local _ .vmem, ⟨74, _⟩ => ⟨S5000x43, .f32⟩
  | .local _ .vmem, ⟨75, _⟩ => ⟨S512x43, .f32⟩
  | .local _ .vmem, ⟨76, _⟩ => ⟨S512x43, .f32⟩
  | .local _ .vmem, ⟨77, _⟩ => ⟨S43x392, .f32⟩
  | .local _ .vmem, ⟨78, _⟩ => ⟨S1x392, .f32⟩
  | .local _ .vmem, ⟨79, _⟩ => ⟨S392x392, .f32⟩
  | .local _ .vmem, ⟨80, _⟩ => ⟨S1x392, .f32⟩
  | .local _ .vmem, ⟨81, _⟩ => ⟨S392x392, .f32⟩
  | .local _ .vmem, ⟨82, _⟩ => ⟨S1x392, .f32⟩
  | .local _ .vmem, ⟨83, _⟩ => ⟨S392x138, .f32⟩
  | .local _ .vmem, ⟨84, _⟩ => ⟨S1x138, .f32⟩
  | .local _ .vmem, ⟨85, _⟩ => ⟨S512x138, .f32⟩
  | .local _ .vmem, ⟨86, _⟩ => ⟨S512x138, .f32⟩
  | _, _ => ⟨S100000x43, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_c : Ref sig .tc := ⟨.hbm, 50, rfl⟩
abbrev main_v11 : Ref sig .tc := ⟨.hbm, 51, rfl⟩
abbrev main_v12 : Ref sig .tc := ⟨.hbm, 52, rfl⟩
abbrev main_c_0 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v24 : Ref sig .tc := ⟨.hbm, 87, rfl⟩
abbrev main_cst_1 : Ref sig .tc := ⟨.hbm, 88, rfl⟩
abbrev main_v25 : Ref sig .tc := ⟨.hbm, 89, rfl⟩
abbrev main_c_2 : Ref sig .tc := ⟨.hbm, 90, rfl⟩
abbrev main_v26 : Ref sig .tc := ⟨.hbm, 91, rfl⟩
abbrev main_v27 : Ref sig .tc := ⟨.hbm, 92, rfl⟩
abbrev main_c_3 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v39 : Ref sig .tc := ⟨.hbm, 127, rfl⟩
abbrev main_cst_4 : Ref sig .tc := ⟨.hbm, 128, rfl⟩
abbrev main_v40 : Ref sig .tc := ⟨.hbm, 129, rfl⟩
abbrev main_c_5 : Ref sig .tc := ⟨.hbm, 130, rfl⟩
abbrev main_v41 : Ref sig .tc := ⟨.hbm, 131, rfl⟩
abbrev main_v42 : Ref sig .tc := ⟨.hbm, 132, rfl⟩
abbrev main_c_6 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v54 : Ref sig .tc := ⟨.hbm, 167, rfl⟩
abbrev main_cst_7 : Ref sig .tc := ⟨.hbm, 168, rfl⟩
abbrev main_v55 : Ref sig .tc := ⟨.hbm, 169, rfl⟩
abbrev main_c_8 : Ref sig .tc := ⟨.hbm, 170, rfl⟩
abbrev main_v56 : Ref sig .tc := ⟨.hbm, 171, rfl⟩
abbrev main_v57 : Ref sig .tc := ⟨.hbm, 172, rfl⟩
abbrev main_c_9 : Ref sig .tc := ⟨.hbm, 173, rfl⟩
abbrev main_v58 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_call4_c : Ref sig .tc := ⟨.hbm, 185, rfl⟩
abbrev main_call4_v0 : Ref sig .tc := ⟨.hbm, 186, rfl⟩
abbrev main_call4_v1 : Ref sig .tc := ⟨.hbm, 187, rfl⟩
abbrev main_call4_c_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_v5 : Ref sig .tc := ⟨.hbm, 192, rfl⟩
abbrev main_call4_c_1 : Ref sig .tc := ⟨.hbm, 193, rfl⟩
abbrev main_call4_c_2 : Ref sig .tc := ⟨.hbm, 194, rfl⟩
abbrev main_call4_v6 : Ref sig .tc := ⟨.hbm, 195, rfl⟩
abbrev main_call4_v7 : Ref sig .tc := ⟨.hbm, 196, rfl⟩
abbrev main_call4_v8 : Ref sig .tc := ⟨.hbm, 197, rfl⟩
abbrev main_call4_v9 : Ref sig .tc := ⟨.hbm, 198, rfl⟩
abbrev main_call4_v10 : Ref sig .tc := ⟨.hbm, 199, rfl⟩
abbrev main_call4_v11 : Ref sig .tc := ⟨.hbm, 200, rfl⟩
abbrev main_call4_c_3 : Ref sig .tc := ⟨.hbm, 201, rfl⟩
abbrev main_call4_v12 : Ref sig .tc := ⟨.hbm, 202, rfl⟩
abbrev main_call4_v13 : Ref sig .tc := ⟨.hbm, 203, rfl⟩
abbrev main_call4_v14 : Ref sig .tc := ⟨.hbm, 204, rfl⟩
abbrev main_call4_cst : Ref sig .tc := ⟨.hbm, 205, rfl⟩
abbrev main_call4_v15 : Ref sig .tc := ⟨.hbm, 206, rfl⟩
abbrev main_v69 : Ref sig .tc := ⟨.hbm, 207, rfl⟩
abbrev main_cst_10 : Ref sig .tc := ⟨.hbm, 208, rfl⟩
abbrev main_v70 : Ref sig .tc := ⟨.hbm, 209, rfl⟩
abbrev main_c_11 : Ref sig .tc := ⟨.hbm, 210, rfl⟩
abbrev main_v71 : Ref sig .tc := ⟨.hbm, 211, rfl⟩
abbrev main_v72 : Ref sig .tc := ⟨.hbm, 212, rfl⟩
abbrev main_c_12 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_cst_13 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg2_0 : Ref sig .tc := ⟨.vmem, 78, rfl⟩
abbrev cc10_stg3_0 : Ref sig .tc := ⟨.vmem, 79, rfl⟩
abbrev cc10_stg4_0 : Ref sig .tc := ⟨.vmem, 80, rfl⟩
abbrev cc10_stg5_0 : Ref sig .tc := ⟨.vmem, 81, rfl⟩
abbrev cc10_stg6_0 : Ref sig .tc := ⟨.vmem, 82, rfl⟩
abbrev cc10_stg7_0 : Ref sig .tc := ⟨.vmem, 83, rfl⟩
abbrev cc10_stg8_0 : Ref sig .tc := ⟨.vmem, 84, rfl⟩
abbrev cc10_stg9_0 : Ref sig .tc := ⟨.vmem, 85, rfl⟩
abbrev cc10_stg9_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74
abbrev cc10_sem0_0 : DmaSem sig := 75
abbrev cc10_sem0_1 : DmaSem sig := 76
abbrev cc10_sem1_0 : DmaSem sig := 77
abbrev cc10_sem2_0 : DmaSem sig := 78
abbrev cc10_sem3_0 : DmaSem sig := 79
abbrev cc10_sem4_0 : DmaSem sig := 80
abbrev cc10_sem5_0 : DmaSem sig := 81
abbrev cc10_sem6_0 : DmaSem sig := 82
abbrev cc10_sem7_0 : DmaSem sig := 83
abbrev cc10_sem8_0 : DmaSem sig := 84
abbrev cc10_sem9_0 : DmaSem sig := 85
abbrev cc10_sem9_1 : DmaSem sig := 86

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x43 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S43x43 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x43 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x43 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x43 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S43x129 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S43x129 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x129 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x129 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x43 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x43 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S43x43 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x43 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x43 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x43 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S43x129 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S43x129 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x129 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x129 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x43 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x43 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S43x43 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x43 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x43 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x43 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S43x129 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S43x129 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x129 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x129 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x43 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x43 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S43x43 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x43 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x43 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x43 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S43x129 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S43x129 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x129 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x129 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x43 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x43 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S43x43 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x43 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x43 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x43 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S43x129 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S43x129 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x129 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x129 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x43 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x43 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S43x392 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x392 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S392x392 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x392 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S392x392 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x392 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S392x138 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x138 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S512x138 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S129x43_S43x129_1_0 : S129x43.Transposes [1, 0] S43x129
  slices_S5x43x43_S1x43x43_0_0_0 : S5x43x43.Slices ![0, 0, 0] S1x43x43
  shapeCasts_S1x43x43_S43x43 : S1x43x43.ShapeCasts S43x43
  inb_S5000x43_S5000x43_0_0 : ∀ a, (![0, 0] : Fin 2 → Nat) a + S5000x43.size a ≤ S5000x43.size a
  h_S5000x43 : 0 < S5000x43.numel
  bitsLt_bf16_f32 : FTy.bits .bf16 < FTy.bits .f32
  inb_S43x43_S43x43_0_0 : ∀ a, (![0, 0] : Fin 2 → Nat) a + S43x43.size a ≤ S43x43.size a
  h_S43x43 : 0 < S43x43.numel
  shapeCasts_S43x43_S43x43 : S43x43.ShapeCasts S43x43
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x43_0 : S1600000.BroadcastsInDim S1600000x43 (![0] : Fin 1 → Fin S1600000x43.rank)
  bcast_S_S1600000x43 : S_.BroadcastsInDim S1600000x43 (![] : Fin 0 → Fin S1600000x43.rank)
  bcast_S_S100000x43 : S_.BroadcastsInDim S100000x43 (![] : Fin 0 → Fin S100000x43.rank)
  shapeCasts_S129_S1x129 : S129.ShapeCasts S1x129
  shapeCasts_S5000x43_S5000x43 : S5000x43.ShapeCasts S5000x43
  inb_S43x129_S43x129_0_0 : ∀ a, (![0, 0] : Fin 2 → Nat) a + S43x129.size a ≤ S43x129.size a
  h_S43x129 : 0 < S43x129.numel
  shapeCasts_S43x129_S43x129 : S43x129.ShapeCasts S43x129
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S5000x129 : S1x129.Broadcasts S5000x129
  slices_S5000x129_o0_0_S5000x43 : S5000x129.Slices ![0, 0] S5000x43
  slices_S5000x129_o0_43_S5000x43 : S5000x129.Slices ![0, 43] S5000x43
  slices_S5000x129_o0_86_S5000x43 : S5000x129.Slices ![0, 86] S5000x43
  slices_S5x43x43_S1x43x43_1_0_0 : S5x43x43.Slices ![1, 0, 0] S1x43x43
  slices_S5x43x43_S1x43x43_2_0_0 : S5x43x43.Slices ![2, 0, 0] S1x43x43
  slices_S5x43x43_S1x43x43_3_0_0 : S5x43x43.Slices ![3, 0, 0] S1x43x43
  slices_S5x43x43_S1x43x43_4_0_0 : S5x43x43.Slices ![4, 0, 0] S1x43x43
  bcast_S_S2048x43 : S_.BroadcastsInDim S2048x43 (![] : Fin 0 → Fin S2048x43.rank)
  bcast_S100000_S100000x1_0 : S100000.BroadcastsInDim S100000x1 (![0] : Fin 1 → Fin S100000x1.rank)
  transposes_S392x43_S43x392_1_0 : S392x43.Transposes [1, 0] S43x392
  transposes_S392x392_S392x392_1_0 : S392x392.Transposes [1, 0] S392x392
  transposes_S138x392_S392x138_1_0 : S138x392.Transposes [1, 0] S392x138
  shapeCasts_S392_S1x392 : S392.ShapeCasts S1x392
  shapeCasts_S138_S1x138 : S138.ShapeCasts S1x138
  inb_S512x43_S512x43_0_0 : ∀ a, (![0, 0] : Fin 2 → Nat) a + S512x43.size a ≤ S512x43.size a
  h_S512x43 : 0 < S512x43.numel
  shapeCasts_S512x43_S512x43 : S512x43.ShapeCasts S512x43
  inb_S43x392_S43x392_0_0 : ∀ a, (![0, 0] : Fin 2 → Nat) a + S43x392.size a ≤ S43x392.size a
  h_S43x392 : 0 < S43x392.numel
  shapeCasts_S43x392_S43x392 : S43x392.ShapeCasts S43x392
  inb_S1x392_S1x392_0_0 : ∀ a, (![0, 0] : Fin 2 → Nat) a + S1x392.size a ≤ S1x392.size a
  h_S1x392 : 0 < S1x392.numel
  shapeCasts_S1x392_S1x392 : S1x392.ShapeCasts S1x392
  broadcasts_S1x392_S512x392 : S1x392.Broadcasts S512x392
  inb_S392x392_S392x392_0_0 : ∀ a, (![0, 0] : Fin 2 → Nat) a + S392x392.size a ≤ S392x392.size a
  h_S392x392 : 0 < S392x392.numel
  shapeCasts_S392x392_S392x392 : S392x392.ShapeCasts S392x392
  inb_S392x138_S392x138_0_0 : ∀ a, (![0, 0] : Fin 2 → Nat) a + S392x138.size a ≤ S392x138.size a
  h_S392x138 : 0 < S392x138.numel
  shapeCasts_S392x138_S392x138 : S392x138.ShapeCasts S392x138
  inb_S1x138_S1x138_0_0 : ∀ a, (![0, 0] : Fin 2 → Nat) a + S1x138.size a ≤ S1x138.size a
  h_S1x138 : 0 < S1x138.numel
  shapeCasts_S1x138_S1x138 : S1x138.ShapeCasts S1x138
  broadcasts_S1x138_S512x138 : S1x138.Broadcasts S512x138
  inb_S512x138_S512x138_0_0 : ∀ a, (![0, 0] : Fin 2 → Nat) a + S512x138.size a ≤ S512x138.size a
  h_S512x138 : 0 < S512x138.numel
  dot_S5000x43_S43x43_S5000x43_1_0_0_1_n_n_wf : DotDims.WF S5000x43 S43x43 S5000x43 [1] [0] [0] [1] [] []
  gather_S100000x43_S1600000x1_S1600000x43_1_0_n_n_0_1_143_wf : GatherDims.WF S100000x43 S1600000x1 S1600000x43 [1] [0] [] [0] [] 1 ![1, 43]
  scatter_S100000x43_S1600000x1_S1600000x43_1_0_0_1_wf : ScatterDims.WF S100000x43 S1600000x1 S1600000x43 [1] [0] [0] 1
  dot_S5000x43_S43x129_S5000x129_1_0_0_1_n_n_wf : DotDims.WF S5000x43 S43x129 S5000x129 [1] [0] [0] [1] [] []
  scatter_S2048x43_S100000x1_S100000x43_1_0_0_1_wf : ScatterDims.WF S2048x43 S100000x1 S100000x43 [1] [0] [0] 1
  dot_S512x43_S43x392_S512x392_1_0_0_1_n_n_wf : DotDims.WF S512x43 S43x392 S512x392 [1] [0] [0] [1] [] []
  dot_S512x392_S392x392_S512x392_1_0_0_1_n_n_wf : DotDims.WF S512x392 S392x392 S512x392 [1] [0] [0] [1] [] []
  dot_S512x392_S392x138_S512x138_1_0_0_1_n_n_wf : DotDims.WF S512x392 S392x138 S512x138 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x43.size a ≤ S100000x43.size a
  hwx0_0 : ∀ i : grid0.Coords, EltTy.bits .f32 = 32 ∨ (Rect.block (s := S100000x43) S5000x43.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S43x43.size a ≤ S43x43.size a
  hwx0_1 : ∀ i : grid0.Coords, EltTy.bits .f32 = 32 ∨ (Rect.block (s := S43x43) S43x43.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x43.size a ≤ S100000x43.size a
  hwx0_2 : ∀ i : grid0.Coords, EltTy.bits .f32 = 32 ∨ (Rect.block (s := S100000x43) S5000x43.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x43.size a ≤ S100000x43.size a
  hwx1_0 : ∀ i : grid1.Coords, EltTy.bits .f32 = 32 ∨ (Rect.block (s := S100000x43) S5000x43.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x43.size a ≤ S100000x43.size a
  hwx1_1 : ∀ i : grid1.Coords, EltTy.bits .f32 = 32 ∨ (Rect.block (s := S100000x43) S5000x43.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S43x129.size a ≤ S43x129.size a
  hwx1_2 : ∀ i : grid1.Coords, EltTy.bits .f32 = 32 ∨ (Rect.block (s := S43x129) S43x129.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S43x129.size a ≤ S43x129.size a
  hwx1_3 : ∀ i : grid1.Coords, EltTy.bits .f32 = 32 ∨ (Rect.block (s := S43x129) S43x129.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x129.size a ≤ S1x129.size a
  hwx1_4 : ∀ i : grid1.Coords, EltTy.bits .f32 = 32 ∨ (Rect.block (s := S1x129) S1x129.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x129.size a ≤ S1x129.size a
  hwx1_5 : ∀ i : grid1.Coords, EltTy.bits .f32 = 32 ∨ (Rect.block (s := S1x129) S1x129.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x43.size a ≤ S100000x43.size a
  hwx1_6 : ∀ i : grid1.Coords, EltTy.bits .f32 = 32 ∨ (Rect.block (s := S100000x43) S5000x43.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x43.size a ≤ S100000x43.size a
  hwx2_0 : ∀ i : grid2.Coords, EltTy.bits .f32 = 32 ∨ (Rect.block (s := S100000x43) S5000x43.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S43x43.size a ≤ S43x43.size a
  hwx2_1 : ∀ i : grid2.Coords, EltTy.bits .f32 = 32 ∨ (Rect.block (s := S43x43) S43x43.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x43.size a ≤ S100000x43.size a
  hwx2_2 : ∀ i : grid2.Coords, EltTy.bits .f32 = 32 ∨ (Rect.block (s := S100000x43) S5000x43.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x43.size a ≤ S100000x43.size a
  hwx3_0 : ∀ i : grid3.Coords, EltTy.bits .f32 = 32 ∨ (Rect.block (s := S100000x43) S5000x43.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x43.size a ≤ S100000x43.size a
  hwx3_1 : ∀ i : grid3.Coords, EltTy.bits .f32 = 32 ∨ (Rect.block (s := S100000x43) S5000x43.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S43x129.size a ≤ S43x129.size a
  hwx3_2 : ∀ i : grid3.Coords, EltTy.bits .f32 = 32 ∨ (Rect.block (s := S43x129) S43x129.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S43x129.size a ≤ S43x129.size a
  hwx3_3 : ∀ i : grid3.Coords, EltTy.bits .f32 = 32 ∨ (Rect.block (s := S43x129) S43x129.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x129.size a ≤ S1x129.size a
  hwx3_4 : ∀ i : grid3.Coords, EltTy.bits .f32 = 32 ∨ (Rect.block (s := S1x129) S1x129.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x129.size a ≤ S1x129.size a
  hwx3_5 : ∀ i : grid3.Coords, EltTy.bits .f32 = 32 ∨ (Rect.block (s := S1x129) S1x129.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x43.size a ≤ S100000x43.size a
  hwx3_6 : ∀ i : grid3.Coords, EltTy.bits .f32 = 32 ∨ (Rect.block (s := S100000x43) S5000x43.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x43.size a ≤ S100000x43.size a
  hwx4_0 : ∀ i : grid4.Coords, EltTy.bits .f32 = 32 ∨ (Rect.block (s := S100000x43) S5000x43.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S43x43.size a ≤ S43x43.size a
  hwx4_1 : ∀ i : grid4.Coords, EltTy.bits .f32 = 32 ∨ (Rect.block (s := S43x43) S43x43.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x43.size a ≤ S100000x43.size a
  hwx4_2 : ∀ i : grid4.Coords, EltTy.bits .f32 = 32 ∨ (Rect.block (s := S100000x43) S5000x43.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x43.size a ≤ S100000x43.size a
  hwx5_0 : ∀ i : grid5.Coords, EltTy.bits .f32 = 32 ∨ (Rect.block (s := S100000x43) S5000x43.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x43.size a ≤ S100000x43.size a
  hwx5_1 : ∀ i : grid5.Coords, EltTy.bits .f32 = 32 ∨ (Rect.block (s := S100000x43) S5000x43.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S43x129.size a ≤ S43x129.size a
  hwx5_2 : ∀ i : grid5.Coords, EltTy.bits .f32 = 32 ∨ (Rect.block (s := S43x129) S43x129.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S43x129.size a ≤ S43x129.size a
  hwx5_3 : ∀ i : grid5.Coords, EltTy.bits .f32 = 32 ∨ (Rect.block (s := S43x129) S43x129.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x129.size a ≤ S1x129.size a
  hwx5_4 : ∀ i : grid5.Coords, EltTy.bits .f32 = 32 ∨ (Rect.block (s := S1x129) S1x129.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x129.size a ≤ S1x129.size a
  hwx5_5 : ∀ i : grid5.Coords, EltTy.bits .f32 = 32 ∨ (Rect.block (s := S1x129) S1x129.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x43.size a ≤ S100000x43.size a
  hwx5_6 : ∀ i : grid5.Coords, EltTy.bits .f32 = 32 ∨ (Rect.block (s := S100000x43) S5000x43.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x43.size a ≤ S100000x43.size a
  hwx6_0 : ∀ i : grid6.Coords, EltTy.bits .f32 = 32 ∨ (Rect.block (s := S100000x43) S5000x43.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S43x43.size a ≤ S43x43.size a
  hwx6_1 : ∀ i : grid6.Coords, EltTy.bits .f32 = 32 ∨ (Rect.block (s := S43x43) S43x43.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x43.size a ≤ S100000x43.size a
  hwx6_2 : ∀ i : grid6.Coords, EltTy.bits .f32 = 32 ∨ (Rect.block (s := S100000x43) S5000x43.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x43.size a ≤ S100000x43.size a
  hwx7_0 : ∀ i : grid7.Coords, EltTy.bits .f32 = 32 ∨ (Rect.block (s := S100000x43) S5000x43.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x43.size a ≤ S100000x43.size a
  hwx7_1 : ∀ i : grid7.Coords, EltTy.bits .f32 = 32 ∨ (Rect.block (s := S100000x43) S5000x43.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S43x129.size a ≤ S43x129.size a
  hwx7_2 : ∀ i : grid7.Coords, EltTy.bits .f32 = 32 ∨ (Rect.block (s := S43x129) S43x129.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S43x129.size a ≤ S43x129.size a
  hwx7_3 : ∀ i : grid7.Coords, EltTy.bits .f32 = 32 ∨ (Rect.block (s := S43x129) S43x129.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x129.size a ≤ S1x129.size a
  hwx7_4 : ∀ i : grid7.Coords, EltTy.bits .f32 = 32 ∨ (Rect.block (s := S1x129) S1x129.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x129.size a ≤ S1x129.size a
  hwx7_5 : ∀ i : grid7.Coords, EltTy.bits .f32 = 32 ∨ (Rect.block (s := S1x129) S1x129.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x43.size a ≤ S100000x43.size a
  hwx7_6 : ∀ i : grid7.Coords, EltTy.bits .f32 = 32 ∨ (Rect.block (s := S100000x43) S5000x43.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x43.size a ≤ S100000x43.size a
  hwx8_0 : ∀ i : grid8.Coords, EltTy.bits .f32 = 32 ∨ (Rect.block (s := S100000x43) S5000x43.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S43x43.size a ≤ S43x43.size a
  hwx8_1 : ∀ i : grid8.Coords, EltTy.bits .f32 = 32 ∨ (Rect.block (s := S43x43) S43x43.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x43.size a ≤ S100000x43.size a
  hwx8_2 : ∀ i : grid8.Coords, EltTy.bits .f32 = 32 ∨ (Rect.block (s := S100000x43) S5000x43.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x43.size a ≤ S100000x43.size a
  hwx9_0 : ∀ i : grid9.Coords, EltTy.bits .f32 = 32 ∨ (Rect.block (s := S100000x43) S5000x43.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x43.size a ≤ S100000x43.size a
  hwx9_1 : ∀ i : grid9.Coords, EltTy.bits .f32 = 32 ∨ (Rect.block (s := S100000x43) S5000x43.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S43x129.size a ≤ S43x129.size a
  hwx9_2 : ∀ i : grid9.Coords, EltTy.bits .f32 = 32 ∨ (Rect.block (s := S43x129) S43x129.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S43x129.size a ≤ S43x129.size a
  hwx9_3 : ∀ i : grid9.Coords, EltTy.bits .f32 = 32 ∨ (Rect.block (s := S43x129) S43x129.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x129.size a ≤ S1x129.size a
  hwx9_4 : ∀ i : grid9.Coords, EltTy.bits .f32 = 32 ∨ (Rect.block (s := S1x129) S1x129.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x129.size a ≤ S1x129.size a
  hwx9_5 : ∀ i : grid9.Coords, EltTy.bits .f32 = 32 ∨ (Rect.block (s := S1x129) S1x129.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x43.size a ≤ S100000x43.size a
  hwx9_6 : ∀ i : grid9.Coords, EltTy.bits .f32 = 32 ∨ (Rect.block (s := S100000x43) S5000x43.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x43.size a ≤ S2048x43.size a
  hwx10_0 : ∀ i : grid10.Coords, EltTy.bits .f32 = 32 ∨ (Rect.block (s := S2048x43) S512x43.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S43x392.size a ≤ S43x392.size a
  hwx10_1 : ∀ i : grid10.Coords, EltTy.bits .f32 = 32 ∨ (Rect.block (s := S43x392) S43x392.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x392.size a ≤ S1x392.size a
  hwx10_2 : ∀ i : grid10.Coords, EltTy.bits .f32 = 32 ∨ (Rect.block (s := S1x392) S1x392.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S392x392.size a ≤ S392x392.size a
  hwx10_3 : ∀ i : grid10.Coords, EltTy.bits .f32 = 32 ∨ (Rect.block (s := S392x392) S392x392.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x392.size a ≤ S1x392.size a
  hwx10_4 : ∀ i : grid10.Coords, EltTy.bits .f32 = 32 ∨ (Rect.block (s := S1x392) S1x392.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S392x392.size a ≤ S392x392.size a
  hwx10_5 : ∀ i : grid10.Coords, EltTy.bits .f32 = 32 ∨ (Rect.block (s := S392x392) S392x392.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x392.size a ≤ S1x392.size a
  hwx10_6 : ∀ i : grid10.Coords, EltTy.bits .f32 = 32 ∨ (Rect.block (s := S1x392) S1x392.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S392x138.size a ≤ S392x138.size a
  hwx10_7 : ∀ i : grid10.Coords, EltTy.bits .f32 = 32 ∨ (Rect.block (s := S392x138) S392x138.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x138.size a ≤ S1x138.size a
  hwx10_8 : ∀ i : grid10.Coords, EltTy.bits .f32 = 32 ∨ (Rect.block (s := S1x138) S1x138.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S512x138.size a ≤ S2048x138.size a
  hwx10_9 : ∀ i : grid10.Coords, EltTy.bits .f32 = 32 ∨ (Rect.block (s := S2048x138) S512x138.size (cc10_transform_9 i) (hinb10_9 i)).WholeWords (EltTy.packing .f32)

variable [Facts₀]

def dot_S5000x43_S43x43_S5000x43_1_0_0_1_n_n : DotDims S5000x43 S43x43 S5000x43 where
  lhsContracting := [1]
  rhsContracting := [0]
  lhsNonContracting := [0]
  rhsNonContracting := [1]
  lhsBatch := []
  rhsBatch := []
  wf := dot_S5000x43_S43x43_S5000x43_1_0_0_1_n_n_wf
def gather_S100000x43_S1600000x1_S1600000x43_1_0_n_n_0_1_143 : GatherDims S100000x43 S1600000x1 S1600000x43 where
  offsetDims := [1]
  collapsedSliceDims := [0]
  operandBatchingDims := []
  startIndicesBatchingDims := []
  startIndexMap := [0]
  indexVectorDim := 1
  sliceSizes := ![1, 43]
  wf := gather_S100000x43_S1600000x1_S1600000x43_1_0_n_n_0_1_143_wf
def scatter_S100000x43_S1600000x1_S1600000x43_1_0_0_1 : ScatterDims S100000x43 S1600000x1 S1600000x43 where
  updateWindowDims := [1]
  insertedWindowDims := [0]
  scatterDimsToOperandDims := [0]
  indexVectorDim := 1
  wf := scatter_S100000x43_S1600000x1_S1600000x43_1_0_0_1_wf
def dot_S5000x43_S43x129_S5000x129_1_0_0_1_n_n : DotDims S5000x43 S43x129 S5000x129 where
  lhsContracting := [1]
  rhsContracting := [0]
  lhsNonContracting := [0]
  rhsNonContracting := [1]
  lhsBatch := []
  rhsBatch := []
  wf := dot_S5000x43_S43x129_S5000x129_1_0_0_1_n_n_wf
def scatter_S2048x43_S100000x1_S100000x43_1_0_0_1 : ScatterDims S2048x43 S100000x1 S100000x43 where
  updateWindowDims := [1]
  insertedWindowDims := [0]
  scatterDimsToOperandDims := [0]
  indexVectorDim := 1
  wf := scatter_S2048x43_S100000x1_S100000x43_1_0_0_1_wf
def dot_S512x43_S43x392_S512x392_1_0_0_1_n_n : DotDims S512x43 S43x392 S512x392 where
  lhsContracting := [1]
  rhsContracting := [0]
  lhsNonContracting := [0]
  rhsNonContracting := [1]
  lhsBatch := []
  rhsBatch := []
  wf := dot_S512x43_S43x392_S512x392_1_0_0_1_n_n_wf
def dot_S512x392_S392x392_S512x392_1_0_0_1_n_n : DotDims S512x392 S392x392 S512x392 where
  lhsContracting := [1]
  rhsContracting := [0]
  lhsNonContracting := [0]
  rhsNonContracting := [1]
  lhsBatch := []
  rhsBatch := []
  wf := dot_S512x392_S392x392_S512x392_1_0_0_1_n_n_wf
def dot_S512x392_S392x138_S512x138_1_0_0_1_n_n : DotDims S512x392 S392x138 S512x138 where
  lhsContracting := [1]
  rhsContracting := [0]
  lhsNonContracting := [0]
  rhsNonContracting := [1]
  lhsBatch := []
  rhsBatch := []
  wf := dot_S512x392_S392x138_S512x138_1_0_0_1_n_n_wf

abbrev win0_0 : Pipeline.Window sig grid0 :=
  Pipeline.Window.ofSpec (Memref.whole main_arg0) S5000x43.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S43x43.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x43.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x43.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x43.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S43x129.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S43x129.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x129.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x129.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x43.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S5000x43.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S43x43.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x43.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x43.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x43.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S43x129.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S43x129.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x129.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S1x129.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S5000x43.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S5000x43.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S43x43.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S5000x43.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S5000x43.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S5000x43.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S43x129.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S43x129.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S1x129.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v49) S1x129.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S5000x43.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v50) S5000x43.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v52) S43x43.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v53) S5000x43.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v62) S5000x43.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S5000x43.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S43x129.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S43x129.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S1x129.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v64) S1x129.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v65) S5000x43.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v65) S5000x43.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v67) S43x43.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68) S5000x43.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v77) S5000x43.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v65) S5000x43.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S43x129.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v5) S43x129.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v78) S1x129.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v79) S1x129.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v80) S5000x43.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v83) S512x43.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v84) S43x392.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v88) S1x392.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v85) S392x392.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v89) S1x392.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v86) S392x392.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v90) S1x392.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v87) S392x138.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v91) S1x138.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v92) S512x138.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

class Facts : Prop extends Facts₀ where

variable [Facts]
-- ==== ReferenceIdeal.lean ====
abbrev S100000x43 : Shape := ⟨2, ![100000, 43]⟩
abbrev S2x1600000 : Shape := ⟨2, ![2, 1600000]⟩
abbrev S100000 : Shape := ⟨1, ![100000]⟩
abbrev S5x43x43 : Shape := ⟨3, ![5, 43, 43]⟩
abbrev S129x43 : Shape := ⟨2, ![129, 43]⟩
abbrev S129 : Shape := ⟨1, ![129]⟩
abbrev S392x43 : Shape := ⟨2, ![392, 43]⟩
abbrev S392 : Shape := ⟨1, ![392]⟩
abbrev S392x392 : Shape := ⟨2, ![392, 392]⟩
abbrev S138x392 : Shape := ⟨2, ![138, 392]⟩
abbrev S138 : Shape := ⟨1, ![138]⟩
abbrev S1x1600000 : Shape := ⟨2, ![1, 1600000]⟩
abbrev S1600000 : Shape := ⟨1, ![1600000]⟩
abbrev S1x43x43 : Shape := ⟨3, ![1, 43, 43]⟩
abbrev S43x43 : Shape := ⟨2, ![43, 43]⟩
abbrev S_ : Shape := ⟨0, ![]⟩
abbrev S1600000x1 : Shape := ⟨2, ![1600000, 1]⟩
abbrev S1600000x43 : Shape := ⟨2, ![1600000, 43]⟩
abbrev S43x129 : Shape := ⟨2, ![43, 129]⟩
abbrev S100000x129 : Shape := ⟨2, ![100000, 129]⟩
abbrev S1x129 : Shape := ⟨2, ![1, 129]⟩
abbrev S2048x43 : Shape := ⟨2, ![2048, 43]⟩
abbrev S100000x1 : Shape := ⟨2, ![100000, 1]⟩
abbrev S43x392 : Shape := ⟨2, ![43, 392]⟩
abbrev S2048x392 : Shape := ⟨2, ![2048, 392]⟩
abbrev S1x392 : Shape := ⟨2, ![1, 392]⟩
abbrev S392x138 : Shape := ⟨2, ![392, 138]⟩
abbrev S2048x138 : Shape := ⟨2, ![2048, 138]⟩
abbrev S1x138 : Shape := ⟨2, ![1, 138]⟩

abbrev nBuf : Space → Nat
  | .hbm => 391
  | .vmem => 0
  | .smem => 0
  | _ => 0

abbrev hbmTy0_0 (i : Nat) : BufTy := match i % 128 with
  | 0 => ⟨S100000x43, .f32⟩
  | 1 => ⟨S2x1600000, .i32⟩
  | 2 => ⟨S100000, .i32⟩
  | 3 => ⟨S5x43x43, .f32⟩
  | 4 => ⟨S129x43, .f32⟩
  | 5 => ⟨S129x43, .f32⟩
  | 6 => ⟨S129, .f32⟩
  | 7 => ⟨S129, .f32⟩
  | 8 => ⟨S392x43, .f32⟩
  | 9 => ⟨S392, .f32⟩
  | 10 => ⟨S392x392, .f32⟩
  | 11 => ⟨S392, .f32⟩
  | 12 => ⟨S392x392, .f32⟩
  | 13 => ⟨S392, .f32⟩
  | 14 => ⟨S138x392, .f32⟩
  | 15 => ⟨S138, .f32⟩
  | 16 => ⟨S1x1600000, .i32⟩
  | 17 => ⟨S1600000, .i32⟩
  | 18 => ⟨S1x1600000, .i32⟩
  | 19 => ⟨S1600000, .i32⟩
  | 20 => ⟨S1x43x43, .f32⟩
  | 21 => ⟨S43x43, .f32⟩
  | 22 => ⟨S100000x43, .f32⟩
  | 23 => ⟨S_, .f32⟩
  | 24 => ⟨S100000x43, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x43, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S100000x43, .f32⟩
  | 43 => ⟨S43x129, .f32⟩
  | 44 => ⟨S100000x129, .f32⟩
  | 45 => ⟨S1x129, .f32⟩
  | 46 => ⟨S100000x129, .f32⟩
  | 47 => ⟨S100000x129, .f32⟩
  | 48 => ⟨S43x129, .f32⟩
  | 49 => ⟨S100000x129, .f32⟩
  | 50 => ⟨S1x129, .f32⟩
  | 51 => ⟨S100000x129, .f32⟩
  | 52 => ⟨S100000x129, .f32⟩
  | 53 => ⟨S100000x43, .f32⟩
  | 54 => ⟨S100000x43, .f32⟩
  | 55 => ⟨S100000x43, .f32⟩
  | 56 => ⟨S100000x43, .f32⟩
  | 57 => ⟨S100000x43, .f32⟩
  | 58 => ⟨S100000x43, .f32⟩
  | 59 => ⟨S100000x43, .f32⟩
  | 60 => ⟨S100000x43, .f32⟩
  | 61 => ⟨S100000x43, .f32⟩
  | 62 => ⟨S_, .f32⟩
  | 63 => ⟨S100000x43, .f32⟩
  | 64 => ⟨S100000x43, .f32⟩
  | 65 => ⟨S_, .f32⟩
  | 66 => ⟨S100000x43, .f32⟩
  | 67 => ⟨S100000x43, .f32⟩
  | 68 => ⟨S100000x43, .f32⟩
  | 69 => ⟨S100000x43, .f32⟩
  | 70 => ⟨S100000x43, .f32⟩
  | 71 => ⟨S_, .f32⟩
  | 72 => ⟨S100000x43, .f32⟩
  | 73 => ⟨S100000x43, .f32⟩
  | 74 => ⟨S_, .f32⟩
  | 75 => ⟨S100000x43, .f32⟩
  | 76 => ⟨S100000x43, .f32⟩
  | 77 => ⟨S100000x43, .f32⟩
  | 78 => ⟨S100000x43, .f32⟩
  | 79 => ⟨S100000x43, .f32⟩
  | 80 => ⟨S_, .f32⟩
  | 81 => ⟨S100000x43, .f32⟩
  | 82 => ⟨S100000x43, .f32⟩
  | 83 => ⟨S100000x43, .f32⟩
  | 84 => ⟨S100000x43, .f32⟩
  | 85 => ⟨S100000x43, .f32⟩
  | 86 => ⟨S1x43x43, .f32⟩
  | 87 => ⟨S43x43, .f32⟩
  | 88 => ⟨S100000x43, .f32⟩
  | 89 => ⟨S_, .f32⟩
  | 90 => ⟨S100000x43, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x43, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S100000x43, .f32⟩
  | 109 => ⟨S43x129, .f32⟩
  | 110 => ⟨S100000x129, .f32⟩
  | 111 => ⟨S1x129, .f32⟩
  | 112 => ⟨S100000x129, .f32⟩
  | 113 => ⟨S100000x129, .f32⟩
  | 114 => ⟨S43x129, .f32⟩
  | 115 => ⟨S100000x129, .f32⟩
  | 116 => ⟨S1x129, .f32⟩
  | 117 => ⟨S100000x129, .f32⟩
  | 118 => ⟨S100000x129, .f32⟩
  | 119 => ⟨S100000x43, .f32⟩
  | 120 => ⟨S100000x43, .f32⟩
  | 121 => ⟨S100000x43, .f32⟩
  | 122 => ⟨S100000x43, .f32⟩
  | 123 => ⟨S100000x43, .f32⟩
  | 124 => ⟨S100000x43, .f32⟩
  | 125 => ⟨S100000x43, .f32⟩
  | 126 => ⟨S100000x43, .f32⟩
  | 127 => ⟨S100000x43, .f32⟩
  | _ => ⟨S100000x43, .f32⟩

abbrev hbmTy0_1 (i : Nat) : BufTy := match i % 128 with
  | 0 => ⟨S_, .f32⟩
  | 1 => ⟨S100000x43, .f32⟩
  | 2 => ⟨S100000x43, .f32⟩
  | 3 => ⟨S_, .f32⟩
  | 4 => ⟨S100000x43, .f32⟩
  | 5 => ⟨S100000x43, .f32⟩
  | 6 => ⟨S100000x43, .f32⟩
  | 7 => ⟨S100000x43, .f32⟩
  | 8 => ⟨S100000x43, .f32⟩
  | 9 => ⟨S_, .f32⟩
  | 10 => ⟨S100000x43, .f32⟩
  | 11 => ⟨S100000x43, .f32⟩
  | 12 => ⟨S_, .f32⟩
  | 13 => ⟨S100000x43, .f32⟩
  | 14 => ⟨S100000x43, .f32⟩
  | 15 => ⟨S100000x43, .f32⟩
  | 16 => ⟨S100000x43, .f32⟩
  | 17 => ⟨S100000x43, .f32⟩
  | 18 => ⟨S_, .f32⟩
  | 19 => ⟨S100000x43, .f32⟩
  | 20 => ⟨S100000x43, .f32⟩
  | 21 => ⟨S100000x43, .f32⟩
  | 22 => ⟨S100000x43, .f32⟩
  | 23 => ⟨S100000x43, .f32⟩
  | 24 => ⟨S1x43x43, .f32⟩
  | 25 => ⟨S43x43, .f32⟩
  | 26 => ⟨S100000x43, .f32⟩
  | 27 => ⟨S_, .f32⟩
  | 28 => ⟨S100000x43, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x43, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S100000x43, .f32⟩
  | 47 => ⟨S43x129, .f32⟩
  | 48 => ⟨S100000x129, .f32⟩
  | 49 => ⟨S1x129, .f32⟩
  | 50 => ⟨S100000x129, .f32⟩
  | 51 => ⟨S100000x129, .f32⟩
  | 52 => ⟨S43x129, .f32⟩
  | 53 => ⟨S100000x129, .f32⟩
  | 54 => ⟨S1x129, .f32⟩
  | 55 => ⟨S100000x129, .f32⟩
  | 56 => ⟨S100000x129, .f32⟩
  | 57 => ⟨S100000x43, .f32⟩
  | 58 => ⟨S100000x43, .f32⟩
  | 59 => ⟨S100000x43, .f32⟩
  | 60 => ⟨S100000x43, .f32⟩
  | 61 => ⟨S100000x43, .f32⟩
  | 62 => ⟨S100000x43, .f32⟩
  | 63 => ⟨S100000x43, .f32⟩
  | 64 => ⟨S100000x43, .f32⟩
  | 65 => ⟨S100000x43, .f32⟩
  | 66 => ⟨S_, .f32⟩
  | 67 => ⟨S100000x43, .f32⟩
  | 68 => ⟨S100000x43, .f32⟩
  | 69 => ⟨S_, .f32⟩
  | 70 => ⟨S100000x43, .f32⟩
  | 71 => ⟨S100000x43, .f32⟩
  | 72 => ⟨S100000x43, .f32⟩
  | 73 => ⟨S100000x43, .f32⟩
  | 74 => ⟨S100000x43, .f32⟩
  | 75 => ⟨S_, .f32⟩
  | 76 => ⟨S100000x43, .f32⟩
  | 77 => ⟨S100000x43, .f32⟩
  | 78 => ⟨S_, .f32⟩
  | 79 => ⟨S100000x43, .f32⟩
  | 80 => ⟨S100000x43, .f32⟩
  | 81 => ⟨S100000x43, .f32⟩
  | 82 => ⟨S100000x43, .f32⟩
  | 83 => ⟨S100000x43, .f32⟩
  | 84 => ⟨S_, .f32⟩
  | 85 => ⟨S100000x43, .f32⟩
  | 86 => ⟨S100000x43, .f32⟩
  | 87 => ⟨S100000x43, .f32⟩
  | 88 => ⟨S100000x43, .f32⟩
  | 89 => ⟨S100000x43, .f32⟩
  | 90 => ⟨S1x43x43, .f32⟩
  | 91 => ⟨S43x43, .f32⟩
  | 92 => ⟨S100000x43, .f32⟩
  | 93 => ⟨S_, .f32⟩
  | 94 => ⟨S100000x43, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x43, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S100000x43, .f32⟩
  | 113 => ⟨S43x129, .f32⟩
  | 114 => ⟨S100000x129, .f32⟩
  | 115 => ⟨S1x129, .f32⟩
  | 116 => ⟨S100000x129, .f32⟩
  | 117 => ⟨S100000x129, .f32⟩
  | 118 => ⟨S43x129, .f32⟩
  | 119 => ⟨S100000x129, .f32⟩
  | 120 => ⟨S1x129, .f32⟩
  | 121 => ⟨S100000x129, .f32⟩
  | 122 => ⟨S100000x129, .f32⟩
  | 123 => ⟨S100000x43, .f32⟩
  | 124 => ⟨S100000x43, .f32⟩
  | 125 => ⟨S100000x43, .f32⟩
  | 126 => ⟨S100000x43, .f32⟩
  | 127 => ⟨S100000x43, .f32⟩
  | _ => ⟨S100000x43, .f32⟩

abbrev hbmTy0_2 (i : Nat) : BufTy := match i % 128 with
  | 0 => ⟨S100000x43, .f32⟩
  | 1 => ⟨S100000x43, .f32⟩
  | 2 => ⟨S100000x43, .f32⟩
  | 3 => ⟨S100000x43, .f32⟩
  | 4 => ⟨S_, .f32⟩
  | 5 => ⟨S100000x43, .f32⟩
  | 6 => ⟨S100000x43, .f32⟩
  | 7 => ⟨S_, .f32⟩
  | 8 => ⟨S100000x43, .f32⟩
  | 9 => ⟨S100000x43, .f32⟩
  | 10 => ⟨S100000x43, .f32⟩
  | 11 => ⟨S100000x43, .f32⟩
  | 12 => ⟨S100000x43, .f32⟩
  | 13 => ⟨S_, .f32⟩
  | 14 => ⟨S100000x43, .f32⟩
  | 15 => ⟨S100000x43, .f32⟩
  | 16 => ⟨S_, .f32⟩
  | 17 => ⟨S100000x43, .f32⟩
  | 18 => ⟨S100000x43, .f32⟩
  | 19 => ⟨S100000x43, .f32⟩
  | 20 => ⟨S100000x43, .f32⟩
  | 21 => ⟨S100000x43, .f32⟩
  | 22 => ⟨S_, .f32⟩
  | 23 => ⟨S100000x43, .f32⟩
  | 24 => ⟨S100000x43, .f32⟩
  | 25 => ⟨S100000x43, .f32⟩
  | 26 => ⟨S100000x43, .f32⟩
  | 27 => ⟨S100000x43, .f32⟩
  | 28 => ⟨S1x43x43, .f32⟩
  | 29 => ⟨S43x43, .f32⟩
  | 30 => ⟨S100000x43, .f32⟩
  | 31 => ⟨S_, .f32⟩
  | 32 => ⟨S100000x43, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x43, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S100000x43, .f32⟩
  | 51 => ⟨S43x129, .f32⟩
  | 52 => ⟨S100000x129, .f32⟩
  | 53 => ⟨S1x129, .f32⟩
  | 54 => ⟨S100000x129, .f32⟩
  | 55 => ⟨S100000x129, .f32⟩
  | 56 => ⟨S43x129, .f32⟩
  | 57 => ⟨S100000x129, .f32⟩
  | 58 => ⟨S1x129, .f32⟩
  | 59 => ⟨S100000x129, .f32⟩
  | 60 => ⟨S100000x129, .f32⟩
  | 61 => ⟨S100000x43, .f32⟩
  | 62 => ⟨S100000x43, .f32⟩
  | 63 => ⟨S100000x43, .f32⟩
  | 64 => ⟨S100000x43, .f32⟩
  | 65 => ⟨S100000x43, .f32⟩
  | 66 => ⟨S100000x43, .f32⟩
  | 67 => ⟨S100000x43, .f32⟩
  | 68 => ⟨S100000x43, .f32⟩
  | 69 => ⟨S100000x43, .f32⟩
  | 70 => ⟨S_, .f32⟩
  | 71 => ⟨S100000x43, .f32⟩
  | 72 => ⟨S100000x43, .f32⟩
  | 73 => ⟨S_, .f32⟩
  | 74 => ⟨S100000x43, .f32⟩
  | 75 => ⟨S100000x43, .f32⟩
  | 76 => ⟨S100000x43, .f32⟩
  | 77 => ⟨S100000x43, .f32⟩
  | 78 => ⟨S100000x43, .f32⟩
  | 79 => ⟨S_, .f32⟩
  | 80 => ⟨S100000x43, .f32⟩
  | 81 => ⟨S100000x43, .f32⟩
  | 82 => ⟨S_, .f32⟩
  | 83 => ⟨S100000x43, .f32⟩
  | 84 => ⟨S100000x43, .f32⟩
  | 85 => ⟨S100000x43, .f32⟩
  | 86 => ⟨S100000x43, .f32⟩
  | 87 => ⟨S100000x43, .f32⟩
  | 88 => ⟨S_, .f32⟩
  | 89 => ⟨S100000x43, .f32⟩
  | 90 => ⟨S100000x43, .f32⟩
  | 91 => ⟨S100000x43, .f32⟩
  | 92 => ⟨S100000x43, .f32⟩
  | 93 => ⟨S100000x43, .f32⟩
  | 94 => ⟨S_, .f32⟩
  | 95 => ⟨S2048x43, .f32⟩
  | 96 => ⟨S100000x1, .i32⟩
  | 97 => ⟨S2048x43, .f32⟩
  | 98 => ⟨S43x392, .f32⟩
  | 99 => ⟨S2048x392, .f32⟩
  | 100 => ⟨S1x392, .f32⟩
  | 101 => ⟨S2048x392, .f32⟩
  | 102 => ⟨S2048x392, .f32⟩
  | 103 => ⟨S_, .f32⟩
  | 104 => ⟨S2048x392, .f32⟩
  | 105 => ⟨S2048x392, .f32⟩
  | 106 => ⟨S392x392, .f32⟩
  | 107 => ⟨S2048x392, .f32⟩
  | 108 => ⟨S1x392, .f32⟩
  | 109 => ⟨S2048x392, .f32⟩
  | 110 => ⟨S2048x392, .f32⟩
  | 111 => ⟨S_, .f32⟩
  | 112 => ⟨S2048x392, .f32⟩
  | 113 => ⟨S2048x392, .f32⟩
  | 114 => ⟨S392x392, .f32⟩
  | 115 => ⟨S2048x392, .f32⟩
  | 116 => ⟨S1x392, .f32⟩
  | 117 => ⟨S2048x392, .f32⟩
  | 118 => ⟨S2048x392, .f32⟩
  | 119 => ⟨S_, .f32⟩
  | 120 => ⟨S2048x392, .f32⟩
  | 121 => ⟨S2048x392, .f32⟩
  | 122 => ⟨S392x138, .f32⟩
  | 123 => ⟨S2048x138, .f32⟩
  | 124 => ⟨S1x138, .f32⟩
  | 125 => ⟨S2048x138, .f32⟩
  | 126 => ⟨S2048x138, .f32⟩
  | 127 => ⟨S2048x138, .f32⟩
  | _ => ⟨S100000x43, .f32⟩

abbrev hbmTy0_3 (i : Nat) : BufTy := match i % 128 with
  | 0 => ⟨S2048x138, .f32⟩
  | 1 => ⟨S_, .f32⟩
  | 2 => ⟨S2048x138, .f32⟩
  | 3 => ⟨S2048x138, .f32⟩
  | 4 => ⟨S_, .f32⟩
  | 5 => ⟨S2048x138, .f32⟩
  | 6 => ⟨S2048x138, .f32⟩
  | _ => ⟨S100000x43, .f32⟩

abbrev hbmTy (i : Nat) : BufTy := match i / 128 with
  | 0 => hbmTy0_0 i
  | 1 => hbmTy0_1 i
  | 2 => hbmTy0_2 i
  | 3 => hbmTy0_3 i
  | _ => ⟨S100000x43, .f32⟩

abbrev bufTy : (tb : Table) → Fin (tcTables nBuf tb) → BufTy
  | .hbm, ⟨i, _⟩ => hbmTy i
  | _, _ => ⟨S100000x43, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_c_9 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_13 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_15 : Ref sig .tc := ⟨.hbm, 137, rfl⟩
abbrev main_v104 : Ref sig .tc := ⟨.hbm, 138, rfl⟩
abbrev main_v105 : Ref sig .tc := ⟨.hbm, 139, rfl⟩
abbrev main_cst_16 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_17 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_18 : Ref sig .tc := ⟨.hbm, 155, rfl⟩
abbrev main_v119 : Ref sig .tc := ⟨.hbm, 156, rfl⟩
abbrev main_c_19 : Ref sig .tc := ⟨.hbm, 157, rfl⟩
abbrev main_v120 : Ref sig .tc := ⟨.hbm, 158, rfl⟩
abbrev main_v121 : Ref sig .tc := ⟨.hbm, 159, rfl⟩
abbrev main_c_20 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_21 : Ref sig .tc := ⟨.hbm, 166, rfl⟩
abbrev main_v127 : Ref sig .tc := ⟨.hbm, 167, rfl⟩
abbrev main_v128 : Ref sig .tc := ⟨.hbm, 168, rfl⟩
abbrev main_c_22 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_23 : Ref sig .tc := ⟨.hbm, 194, rfl⟩
abbrev main_v153 : Ref sig .tc := ⟨.hbm, 195, rfl⟩
abbrev main_v154 : Ref sig .tc := ⟨.hbm, 196, rfl⟩
abbrev main_cst_24 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_25 : Ref sig .tc := ⟨.hbm, 203, rfl⟩
abbrev main_v160 : Ref sig .tc := ⟨.hbm, 204, rfl⟩
abbrev main_v161 : Ref sig .tc := ⟨.hbm, 205, rfl⟩
abbrev main_cst_26 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_27 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_28 : Ref sig .tc := ⟨.hbm, 221, rfl⟩
abbrev main_v175 : Ref sig .tc := ⟨.hbm, 222, rfl⟩
abbrev main_c_29 : Ref sig .tc := ⟨.hbm, 223, rfl⟩
abbrev main_v176 : Ref sig .tc := ⟨.hbm, 224, rfl⟩
abbrev main_v177 : Ref sig .tc := ⟨.hbm, 225, rfl⟩
abbrev main_c_30 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_c_31 : Ref sig .tc := ⟨.hbm, 232, rfl⟩
abbrev main_v183 : Ref sig .tc := ⟨.hbm, 233, rfl⟩
abbrev main_v184 : Ref sig .tc := ⟨.hbm, 234, rfl⟩
abbrev main_c_32 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_33 : Ref sig .tc := ⟨.hbm, 260, rfl⟩
abbrev main_v209 : Ref sig .tc := ⟨.hbm, 261, rfl⟩
abbrev main_v210 : Ref sig .tc := ⟨.hbm, 262, rfl⟩
abbrev main_cst_34 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_35 : Ref sig .tc := ⟨.hbm, 269, rfl⟩
abbrev main_v216 : Ref sig .tc := ⟨.hbm, 270, rfl⟩
abbrev main_v217 : Ref sig .tc := ⟨.hbm, 271, rfl⟩
abbrev main_cst_36 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_37 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_38 : Ref sig .tc := ⟨.hbm, 287, rfl⟩
abbrev main_v231 : Ref sig .tc := ⟨.hbm, 288, rfl⟩
abbrev main_c_39 : Ref sig .tc := ⟨.hbm, 289, rfl⟩
abbrev main_v232 : Ref sig .tc := ⟨.hbm, 290, rfl⟩
abbrev main_v233 : Ref sig .tc := ⟨.hbm, 291, rfl⟩
abbrev main_c_40 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_c_41 : Ref sig .tc := ⟨.hbm, 298, rfl⟩
abbrev main_v239 : Ref sig .tc := ⟨.hbm, 299, rfl⟩
abbrev main_v240 : Ref sig .tc := ⟨.hbm, 300, rfl⟩
abbrev main_c_42 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_cst_43 : Ref sig .tc := ⟨.hbm, 326, rfl⟩
abbrev main_v265 : Ref sig .tc := ⟨.hbm, 327, rfl⟩
abbrev main_v266 : Ref sig .tc := ⟨.hbm, 328, rfl⟩
abbrev main_cst_44 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_cst_45 : Ref sig .tc := ⟨.hbm, 335, rfl⟩
abbrev main_v272 : Ref sig .tc := ⟨.hbm, 336, rfl⟩
abbrev main_v273 : Ref sig .tc := ⟨.hbm, 337, rfl⟩
abbrev main_cst_46 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_cst_47 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_cst_48 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_call0_cst : Ref sig .tc := ⟨.hbm, 359, rfl⟩
abbrev main_call0_v0 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_call1_cst : Ref sig .tc := ⟨.hbm, 367, rfl⟩
abbrev main_call1_v0 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_call2_cst : Ref sig .tc := ⟨.hbm, 375, rfl⟩
abbrev main_call2_v0 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_cst_49 : Ref sig .tc := ⟨.hbm, 385, rfl⟩
abbrev main_v312 : Ref sig .tc := ⟨.hbm, 386, rfl⟩
abbrev main_v313 : Ref sig .tc := ⟨.hbm, 387, rfl⟩
abbrev main_cst_50 : Ref sig .tc := ⟨.hbm, 388, rfl⟩
abbrev main_v314 : Ref sig .tc := ⟨.hbm, 389, rfl⟩
abbrev main_v315 : Ref sig .tc := ⟨.hbm, 390, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x43x43_S1x43x43_0_0_0 : S5x43x43.Slices ![0, 0, 0] S1x43x43
  shapeCasts_S1x43x43_S43x43 : S1x43x43.ShapeCasts S43x43
  bcast_S_S100000x43 : S_.BroadcastsInDim S100000x43 (![] : Fin 0 → Fin S100000x43.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S129x43_S43x129_1_0 : S129x43.Transposes [1, 0] S43x129
  bcast_S129_S1x129_1 : S129.BroadcastsInDim S1x129 (![1] : Fin 1 → Fin S1x129.rank)
  bcast_S1x129_S100000x129_0_1 : S1x129.BroadcastsInDim S100000x129 (![0, 1] : Fin 2 → Fin S100000x129.rank)
  slices_S100000x129_S100000x43_0_0 : S100000x129.Slices ![0, 0] S100000x43
  slices_S100000x129_S100000x43_0_43 : S100000x129.Slices ![0, 43] S100000x43
  slices_S100000x129_S100000x43_0_86 : S100000x129.Slices ![0, 86] S100000x43
  slices_S5x43x43_S1x43x43_1_0_0 : S5x43x43.Slices ![1, 0, 0] S1x43x43
  slices_S5x43x43_S1x43x43_2_0_0 : S5x43x43.Slices ![2, 0, 0] S1x43x43
  slices_S5x43x43_S1x43x43_3_0_0 : S5x43x43.Slices ![3, 0, 0] S1x43x43
  slices_S5x43x43_S1x43x43_4_0_0 : S5x43x43.Slices ![4, 0, 0] S1x43x43
  bcast_S_S2048x43 : S_.BroadcastsInDim S2048x43 (![] : Fin 0 → Fin S2048x43.rank)
  bcast_S100000_S100000x1_0 : S100000.BroadcastsInDim S100000x1 (![0] : Fin 1 → Fin S100000x1.rank)
  transposes_S392x43_S43x392_1_0 : S392x43.Transposes [1, 0] S43x392
  bcast_S392_S1x392_1 : S392.BroadcastsInDim S1x392 (![1] : Fin 1 → Fin S1x392.rank)
  bcast_S1x392_S2048x392_0_1 : S1x392.BroadcastsInDim S2048x392 (![0, 1] : Fin 2 → Fin S2048x392.rank)
  bcast_S_S2048x392 : S_.BroadcastsInDim S2048x392 (![] : Fin 0 → Fin S2048x392.rank)
  transposes_S392x392_S392x392_1_0 : S392x392.Transposes [1, 0] S392x392
  transposes_S138x392_S392x138_1_0 : S138x392.Transposes [1, 0] S392x138
  bcast_S138_S1x138_1 : S138.BroadcastsInDim S1x138 (![1] : Fin 1 → Fin S1x138.rank)
  bcast_S1x138_S2048x138_0_1 : S1x138.BroadcastsInDim S2048x138 (![0, 1] : Fin 2 → Fin S2048x138.rank)
  bcast_S_S2048x138 : S_.BroadcastsInDim S2048x138 (![] : Fin 0 → Fin S2048x138.rank)
  dot_S100000x43_S43x43_S100000x43_1_0_0_1_n_n_wf : DotDims.WF S100000x43 S43x43 S100000x43 [1] [0] [0] [1] [] []
  gather_S100000x43_S1600000x1_S1600000x43_1_0_n_n_0_1_143_wf : GatherDims.WF S100000x43 S1600000x1 S1600000x43 [1] [0] [] [0] [] 1 ![1, 43]
  scatter_S100000x43_S1600000x1_S1600000x43_1_0_0_1_wf : ScatterDims.WF S100000x43 S1600000x1 S1600000x43 [1] [0] [0] 1
  dot_S100000x43_S43x129_S100000x129_1_0_0_1_n_n_wf : DotDims.WF S100000x43 S43x129 S100000x129 [1] [0] [0] [1] [] []
  scatter_S2048x43_S100000x1_S100000x43_1_0_0_1_wf : ScatterDims.WF S2048x43 S100000x1 S100000x43 [1] [0] [0] 1
  dot_S2048x43_S43x392_S2048x392_1_0_0_1_n_n_wf : DotDims.WF S2048x43 S43x392 S2048x392 [1] [0] [0] [1] [] []
  dot_S2048x392_S392x392_S2048x392_1_0_0_1_n_n_wf : DotDims.WF S2048x392 S392x392 S2048x392 [1] [0] [0] [1] [] []
  dot_S2048x392_S392x138_S2048x138_1_0_0_1_n_n_wf : DotDims.WF S2048x392 S392x138 S2048x138 [1] [0] [0] [1] [] []

variable [Facts₀]

def dot_S100000x43_S43x43_S100000x43_1_0_0_1_n_n : DotDims S100000x43 S43x43 S100000x43 where
  lhsContracting := [1]
  rhsContracting := [0]
  lhsNonContracting := [0]
  rhsNonContracting := [1]
  lhsBatch := []
  rhsBatch := []
  wf := dot_S100000x43_S43x43_S100000x43_1_0_0_1_n_n_wf
def gather_S100000x43_S1600000x1_S1600000x43_1_0_n_n_0_1_143 : GatherDims S100000x43 S1600000x1 S1600000x43 where
  offsetDims := [1]
  collapsedSliceDims := [0]
  operandBatchingDims := []
  startIndicesBatchingDims := []
  startIndexMap := [0]
  indexVectorDim := 1
  sliceSizes := ![1, 43]
  wf := gather_S100000x43_S1600000x1_S1600000x43_1_0_n_n_0_1_143_wf
def scatter_S100000x43_S1600000x1_S1600000x43_1_0_0_1 : ScatterDims S100000x43 S1600000x1 S1600000x43 where
  updateWindowDims := [1]
  insertedWindowDims := [0]
  scatterDimsToOperandDims := [0]
  indexVectorDim := 1
  wf := scatter_S100000x43_S1600000x1_S1600000x43_1_0_0_1_wf
def dot_S100000x43_S43x129_S100000x129_1_0_0_1_n_n : DotDims S100000x43 S43x129 S100000x129 where
  lhsContracting := [1]
  rhsContracting := [0]
  lhsNonContracting := [0]
  rhsNonContracting := [1]
  lhsBatch := []
  rhsBatch := []
  wf := dot_S100000x43_S43x129_S100000x129_1_0_0_1_n_n_wf
def scatter_S2048x43_S100000x1_S100000x43_1_0_0_1 : ScatterDims S2048x43 S100000x1 S100000x43 where
  updateWindowDims := [1]
  insertedWindowDims := [0]
  scatterDimsToOperandDims := [0]
  indexVectorDim := 1
  wf := scatter_S2048x43_S100000x1_S100000x43_1_0_0_1_wf
def dot_S2048x43_S43x392_S2048x392_1_0_0_1_n_n : DotDims S2048x43 S43x392 S2048x392 where
  lhsContracting := [1]
  rhsContracting := [0]
  lhsNonContracting := [0]
  rhsNonContracting := [1]
  lhsBatch := []
  rhsBatch := []
  wf := dot_S2048x43_S43x392_S2048x392_1_0_0_1_n_n_wf
def dot_S2048x392_S392x392_S2048x392_1_0_0_1_n_n : DotDims S2048x392 S392x392 S2048x392 where
  lhsContracting := [1]
  rhsContracting := [0]
  lhsNonContracting := [0]
  rhsNonContracting := [1]
  lhsBatch := []
  rhsBatch := []
  wf := dot_S2048x392_S392x392_S2048x392_1_0_0_1_n_n_wf
def dot_S2048x392_S392x138_S2048x138_1_0_0_1_n_n : DotDims S2048x392 S392x138 S2048x138 where
  lhsContracting := [1]
  rhsContracting := [0]
  lhsNonContracting := [0]
  rhsNonContracting := [1]
  lhsBatch := []
  rhsBatch := []
  wf := dot_S2048x392_S392x138_S2048x138_1_0_0_1_n_n_wf

class Facts : Prop extends Facts₀ where

variable [Facts]
-- ==== Proof.Spec.lean ====
import Idealize.ShloMosaic.PureOps.Ideal
import Idealize.ShloMosaic.Lib.ValueIdx
import Idealize.ShloMosaic.Lib.IdealHost

noncomputable section

namespace Cert.Spec

open Idealize.ShloMosaic Idealize.ShloMosaic.ValueIdx
open scoped BigOperators

abbrev Mat (r c : Nat) : Type := (⟨2, ![r, c]⟩ : Shape).Idx → EReal

abbrev IdxVec (n : Nat) : Type := (⟨1, ![n]⟩ : Shape).Idx → BitVec 32

abbrev one : EReal := Ideal.ofBits .f32 0x3F800000#32

abbrev zero : EReal := Ideal.ofBits .f32 0x00000000#32

/-- Row r of a against column c of b, the terms in the order of k. -/
def dot {P K C : Nat} (a : Mat P K) (b : Mat K C) (r : Fin P) (c : Fin C) : EReal :=
  ∑ k : Fin K, a (ix2 r k) * b (ix2 k c)

def lin {P K C : Nat} (a : Mat P K) (b : Mat K C) : Mat P C :=
  fun i => dot a b (i 0) (i 1)

/-- The product plus a bias along the columns. -/
def dense {P K C : Nat} (x : Mat P K) (w : Mat K C) (b : Fin C → EReal) : Mat P C :=
  fun i => dot x w (i 0) (i 1) + b (i 1)

def relu {P C : Nat} (x : Mat P C) : Mat P C :=
  fun i => max (x i) zero

/-- A negative index word has the row count added, once. -/
def wrap (cP : BitVec 32) (w : BitVec 32) : BitVec 32 :=
  Scalar.select (IntOp.cmpi .slt w 0#32) (IntOp.addi w cP) w

/-- The row a signed index word names among P rows, clamped into range. -/
def rowOf (P : Nat) (hP : 0 < P) (w : BitVec 32) : Fin P :=
  ⟨min w.toInt.toNat (P - 1), by omega⟩

/-- Row n of the result is the row of m that src n names. -/
def gath {P N C : Nat} (hP : 0 < P) (m : Mat P C) (src : IdxVec N) : Mat N C :=
  fun i => m (ix2 (rowOf P hP (src (ix1 (i 0)))) (i 1))

/-- Row p of the result is zero plus the sum of the rows of u whose destination word, read signed, is p. -/
def scat {P N C : Nat} (dst : IdxVec N) (u : Mat N C) : Mat P C :=
  fun i => 0 + ∑ n ∈ Finset.univ.filter (fun n : Fin N => (dst (ix1 n)).toInt = (((i 0 : Fin P)).val : Int)), u (ix2 n (i 1))

/-- A node's new state at feature q from its gate pre-activations, each laid reset | update | candidate, and its old state. -/
def gruCell (gi gh : Fin 129 → EReal) (hp : EReal) (q : Fin 43) : EReal :=
  let r := Ideal.logistic (gi ⟨q.val, by omega⟩ + gh ⟨q.val, by omega⟩)
  let z := Ideal.logistic (gi ⟨q.val + 43, by omega⟩ + gh ⟨q.val + 43, by omega⟩)
  let n := Ideal.tanh (gi ⟨q.val + 86, by omega⟩ + r * gh ⟨q.val + 86, by omega⟩)
  (one - z) * n + z * hp

/-- Every node's update: the gates of node i are agg_i · wi + bi and h_i · wh + bh. -/
def gru {P : Nat} (agg h : Mat P 43) (wi wh : Mat 43 129) (bi bh : Fin 129 → EReal) : Mat P 43 :=
  fun i => gruCell (fun j => dot agg wi (i 0) j + bi j) (fun j => dot h wh (i 0) j + bh j) (h (ix2 (i 0) (i 1))) (i 1)

/-- Three dense layers with max(·, 0) after each, then a dense head under the logistic function. -/
def mlp {P : Nat} (g : Mat P 43) (w1 : Mat 43 392) (b1 : Fin 392 → EReal) (w2 : Mat 392 392) (b2 : Fin 392 → EReal)
    (w3 : Mat 392 392) (b3 : Fin 392 → EReal) (wp : Mat 392 138) (bp : Fin 138 → EReal) : Mat P 138 :=
  fun i => Ideal.logistic (dense (relu (dense (relu (dense (relu (dense g w1 b1)) w2 b2)) w3 b3)) wp bp i)

/-- One round: the messages h · w taken at the sources and added at the destinations, then the gated update. -/
def layer (h : Mat 100000 43) (w : Mat 43 43) (src dst : IdxVec 1600000) (wi wh : Mat 43 129)
    (bi bh : Fin 129 → EReal) : Mat 100000 43 :=
  gru (scat (fun e => wrap 0x000186A0#32 (dst e)) (gath (P := 100000) (by decide) (lin h w) src)) h wi wh bi bh

def tr {R C : Nat} (a : Mat R C) : Mat C R :=
  fun i => a (ix2 (i 1) (i 0))

def member {L R C : Nat} (s : (⟨3, ![L, R, C]⟩ : Shape).Idx → EReal) (l : Fin L) : Mat R C :=
  fun i => s (ix3 l (i 0) (i 1))

def row {R N : Nat} (e : (⟨2, ![R, N]⟩ : Shape).Idx → BitVec 32) (r : Fin R) : IdxVec N :=
  fun i => e (ix2 r (i 0))

def vec {n : Nat} (b : (⟨1, ![n]⟩ : Shape).Idx → EReal) : Fin n → EReal :=
  fun j => b (ix1 j)

/-- Five rounds over the edge table with the stacked round weights, the states pooled by graph number, then the perceptron. -/
def net (x : Mat 100000 43) (e : (⟨2, ![2, 1600000]⟩ : Shape).Idx → BitVec 32) (b : IdxVec 100000)
    (s : (⟨3, ![5, 43, 43]⟩ : Shape).Idx → EReal) (a4 a5 : Mat 129 43)
    (a6 a7 : (⟨1, ![129]⟩ : Shape).Idx → EReal) (a8 : Mat 392 43) (a9 : (⟨1, ![392]⟩ : Shape).Idx → EReal)
    (a10 : Mat 392 392) (a11 : (⟨1, ![392]⟩ : Shape).Idx → EReal) (a12 : Mat 392 392)
    (a13 : (⟨1, ![392]⟩ : Shape).Idx → EReal) (a14 : Mat 138 392) (a15 : (⟨1, ![138]⟩ : Shape).Idx → EReal) :
    Mat 2048 138 :=
  let h1 := layer x (member s 0) (row e 0) (row e 1) (tr a4) (tr a5) (vec a6) (vec a7)
  let h2 := layer h1 (member s 1) (row e 0) (row e 1) (tr a4) (tr a5) (vec a6) (vec a7)
  let h3 := layer h2 (member s 2) (row e 0) (row e 1) (tr a4) (tr a5) (vec a6) (vec a7)
  let h4 := layer h3 (member s 3) (row e 0) (row e 1) (tr a4) (tr a5) (vec a6) (vec a7)
  let h5 := layer h4 (member s 4) (row e 0) (row e 1) (tr a4) (tr a5) (vec a6) (vec a7)
  mlp (scat b h5) (tr a8) (vec a9) (tr a10) (vec a11) (tr a12) (vec a13) (tr a14) (vec a15)

end Cert.Spec

end
-- ==== Proof.KInv.lean ====
import proofs.«400996_j66279935312387_2_alg».proof.Proof.Gen.KernelIdeal.Frame
import proofs.«400996_j66279935312387_2_alg».proof.Proof.Spec

noncomputable section

namespace Cert.KernelIdeal.KInv

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- What every round finds unchanged: the two rows of the edge table, the transposed GRU weights, the weight stack and the two bias vectors. -/
structure Inv (W : Valuation τ sig (Elt Ideal)) : Prop where
  v1 : W (Proc.devRef .tc main_v1) = Cert.Spec.row (m ((c : Thread nD τ).loc main_arg1)) 0
  v3 : W (Proc.devRef .tc main_v3) = Cert.Spec.row (m ((c : Thread nD τ).loc main_arg1)) 1
  v4 : W (Proc.devRef .tc main_v4) = Cert.Spec.tr (m ((c : Thread nD τ).loc main_arg4))
  v5 : W (Proc.devRef .tc main_v5) = Cert.Spec.tr (m ((c : Thread nD τ).loc main_arg5))
  arg3 : W (Proc.devRef .tc main_arg3) = m ((c : Thread nD τ).loc main_arg3)
  arg6 : W (Proc.devRef .tc main_arg6) = m ((c : Thread nD τ).loc main_arg6)
  arg7 : W (Proc.devRef .tc main_arg7) = m ((c : Thread nD τ).loc main_arg7)

/-- The arguments only the last stretch reads, unchanged through the rounds. -/
structure Args (W : Valuation τ sig (Elt Ideal)) : Prop where
  arg2 : W (Proc.devRef .tc main_arg2) = m ((c : Thread nD τ).loc main_arg2)
  arg8 : W (Proc.devRef .tc main_arg8) = m ((c : Thread nD τ).loc main_arg8)
  arg9 : W (Proc.devRef .tc main_arg9) = m ((c : Thread nD τ).loc main_arg9)
  arg10 : W (Proc.devRef .tc main_arg10) = m ((c : Thread nD τ).loc main_arg10)
  arg11 : W (Proc.devRef .tc main_arg11) = m ((c : Thread nD τ).loc main_arg11)
  arg12 : W (Proc.devRef .tc main_arg12) = m ((c : Thread nD τ).loc main_arg12)
  arg13 : W (Proc.devRef .tc main_arg13) = m ((c : Thread nD τ).loc main_arg13)
  arg14 : W (Proc.devRef .tc main_arg14) = m ((c : Thread nD τ).loc main_arg14)
  arg15 : W (Proc.devRef .tc main_arg15) = m ((c : Thread nD τ).loc main_arg15)

theorem Inv.src_range {W : Valuation τ sig (Elt Ideal)} (I : Inv m c W)
    (hs : ∀ n : Fin 1600000, 0 ≤ ((m ((c : Thread nD τ).loc main_arg1)) (ix2 0 n)).toInt
      ∧ ((m ((c : Thread nD τ).loc main_arg1)) (ix2 0 n)).toInt < 100000) (n : Fin 1600000) :
    0 ≤ ((W (Proc.devRef .tc main_v1)) (ix1 n)).toInt ∧ ((W (Proc.devRef .tc main_v1)) (ix1 n)).toInt < 100000 := by
  rw [I.v1]
  exact hs n

end Cert.KernelIdeal.KInv

end
-- ==== Proof.KStep.lean ====
import proofs.«400996_j66279935312387_2_alg».proof.Proof.Gen.KernelIdeal.Frame
import proofs.«400996_j66279935312387_2_alg».proof.Proof.Spec
import proofs.«400996_j66279935312387_2_alg».proof.Proof.KInv

noncomputable section

namespace Cert.KernelIdeal.KStep

open Cert.KernelIdeal Cert.KernelIdeal.Gen Idealize.ShloMosaic Idealize.ShloMosaic.TcCoe Idealize.SL.Sem
open Idealize.ShloMosaic.ValueIdx

/-- Two valuations agree on the buffers of `L`. -/
def Same (L : List (Ref sig .tc)) (W W' : Valuation τ sig (Elt Ideal)) : Prop :=
  ∀ r ∈ L, W' (Proc.devRef .tc r) = W (Proc.devRef .tc r)

variable {L Wl : List (Ref sig .tc)} {W W' W'' : Valuation τ sig (Elt Ideal)}

theorem Same.trans (h : Same L W W') (h' : Same L W' W'') : Same L W W'' :=
  fun r hr => (h' r hr).trans (h r hr)

theorem sub_iff {y : Ref sig .tc} :
    ({Proc.devRef (τ := τ) .tc y} : Finset (DevRef τ sig)) ⊆ (Wl.map (Proc.devRef (τ := τ) .tc)).toFinset ↔ y ∈ Wl := by
  rw [Finset.singleton_subset_iff, List.mem_toFinset, List.mem_map]
  exact ⟨fun ⟨a, ha, e⟩ => Proc.devRef_injective _ e ▸ ha, fun h => ⟨y, h, rfl⟩⟩

/-- Every operation of `ops` writes buffers of `Wl` only. -/
def Writes (ops : List (HloOp τ sig (Elt Ideal))) (Wl : List (Ref sig .tc)) : Prop :=
  ops.Forall fun op => op.writes ⊆ (Wl.map (Proc.devRef (τ := τ) .tc)).toFinset

/-- Operations that write only buffers of `Wl` change nothing outside `Wl`. -/
theorem Same.ops {ops : List (HloOp τ sig (Elt Ideal))} (W : Valuation τ sig (Elt Ideal)) (hW : Writes ops Wl)
    (h : ∀ r ∈ L, r ∉ Wl) :
    Same L W (StableHlo.after ops W) :=
  fun r hr => StableHlo.after_of_writes_sub ops W hW (h r hr)

/-- A change confined to the outputs among `arr` is no change on `L` when `L` meets `arr` in inputs only. -/
theorem Same.region {n : ℕ} {arr : Fin n → Ref sig .tc} (out : Fin n → Bool)
    {X A : (w : Fin n) → (Proc.devRef (τ := τ) (sig := sig) .tc (arr w)).ty.Contents (Elt Ideal)}
    (hne : ∀ b, (∀ w, arr w ≠ b) → W' (Proc.devRef .tc b) = W (Proc.devRef .tc b))
    (harr : ∀ w, W' (Proc.devRef .tc (arr w)) = X w) (hX : ∀ w, out w = false → X w = A w)
    (hA : ∀ w, A w = W (Proc.devRef .tc (arr w)))
    (h : ∀ r ∈ L, ∀ w, arr w = r → out w = false) : Same L W W' := fun r hr => by
  by_cases e : ∃ w, arr w = r
  · obtain ⟨w, rfl⟩ := e
    exact (harr w).trans ((hX w (h _ hr w rfl)).trans (hA w))
  · exact hne r fun w ew => e ⟨w, ew⟩

/-- The seven buffers every round reads again. -/
noncomputable def kept : List (Ref sig .tc) := [main_v1, main_v3, main_v4, main_v5, main_arg3, main_arg6, main_arg7]

/-- The nine arguments read only after the last round. -/
noncomputable def late : List (Ref sig .tc) :=
  [main_arg2, main_arg8, main_arg9, main_arg10, main_arg11, main_arg12, main_arg13, main_arg14, main_arg15]

variable (m : (ℓ : Loc nD τ sig) → Buf (Elt Ideal) ℓ) (c : Dev nD)

theorem Inv.same (h : Same L W W') (I : KInv.Inv m c W) (hL : ∀ r ∈ kept, r ∈ L := by decide) : KInv.Inv m c W' where
  v1 := (h main_v1 (hL _ (by decide))).trans I.v1
  v3 := (h main_v3 (hL _ (by decide))).trans I.v3
  v4 := (h main_v4 (hL _ (by decide))).trans I.v4
  v5 := (h main_v5 (hL _ (by decide))).trans I.v5
  arg3 := (h main_arg3 (hL _ (by decide))).trans I.arg3
  arg6 := (h main_arg6 (hL _ (by decide))).trans I.arg6
  arg7 := (h main_arg7 (hL _ (by decide))).trans I.arg7

theorem Args.same (h : Same L W W') (I : KInv.Args m c W) (hL : ∀ r ∈ late, r ∈ L := by decide) : KInv.Args m c W' where
  arg2 := (h main_arg2 (hL _ (by decide))).trans I.arg2
  arg8 := (h main_arg8 (hL _ (by decide))).trans I.arg8
  arg9 := (h main_arg9 (hL _ (by decide))).trans I.arg9
  arg10 := (h main_arg10 (hL _ (by decide))).trans I.arg10
  arg11 := (h main_arg11 (hL _ (by decide))).trans I.arg11
  arg12 := (h main_arg12 (hL _ (by decide))).trans I.arg12
  arg13 := (h main_arg13 (hL _ (by decide))).trans I.arg13
  arg14 := (h main_arg14 (hL _ (by decide))).trans I.arg14
  arg15 := (h main_arg15 (hL _ (by decide))).trans I.arg15

/-- One round: product (`hm`), rows at the sources (`hg`), sums at the destinations (`hsc`), gated update (`hn`) compose to `layer`. -/
theorem round {B C D : Valuation τ sig (Elt Ideal)} {H Hd Hn Bm Ds : Cert.Spec.Mat 100000 43} {Wk : Cert.Spec.Mat 43 43}
    {Cg : Cert.Spec.Mat 1600000 43} {D6 D7 : Cert.Spec.Mat 1 129}
    (hs : ∀ n : Fin 1600000, 0 ≤ ((m ((c : Thread nD τ).loc main_arg1)) (ix2 0 n)).toInt ∧ ((m ((c : Thread nD τ).loc main_arg1)) (ix2 0 n)).toInt < 100000)
    (I : KInv.Inv m c B) (sC : Same L B C) (sD : Same L C D)
    (hm : Bm = Cert.Spec.lin H Wk)
    (hg : (∀ n : Fin 1600000, 0 ≤ ((B (Proc.devRef .tc main_v1)) (ix1 n)).toInt ∧ ((B (Proc.devRef .tc main_v1)) (ix1 n)).toInt < 100000) →
      Cg = Cert.Spec.gath (P := 100000) (by decide) Bm (B (Proc.devRef .tc main_v1)))
    (hsc : Ds = Cert.Spec.scat (fun e => Cert.Spec.wrap 0x000186A0#32 (C (Proc.devRef .tc main_v3) e)) Cg)
    (h6 : ∀ j : Fin 129, D6 (ix2 0 j) = Cert.Spec.vec (C (Proc.devRef .tc main_arg6)) j)
    (h7 : ∀ j : Fin 129, D7 (ix2 0 j) = Cert.Spec.vec (C (Proc.devRef .tc main_arg7)) j)
    (hh : Hd = H)
    (hn : Hn = Cert.Spec.gru Ds Hd (D (Proc.devRef .tc main_v4)) (D (Proc.devRef .tc main_v5)) (fun j => D6 (ix2 0 j)) (fun j => D7 (ix2 0 j)))
    (hL : ∀ r ∈ kept, r ∈ L := by decide) :
    Hn = Cert.Spec.layer H Wk (Cert.Spec.row (m ((c : Thread nD τ).loc main_arg1)) 0) (Cert.Spec.row (m ((c : Thread nD τ).loc main_arg1)) 1)
      (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7))) := by
  have IC := Inv.same m c sC I hL
  have ID := Inv.same m c sD IC hL
  rw [hn, hsc, hg (I.src_range m c hs), hm, hh, I.v1, IC.v3, ID.v4, ID.v5, funext h6, funext h7, IC.arg6, IC.arg7]
  rfl

end Cert.KernelIdeal.KStep

end
-- ==== Proof.LibScatterSum.lean ====
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

theorem getElem_of_eq_singleton {α : Type*} {l : List α} {a : α} (h : l = [a]) (k : Nat) (hk : k < l.length) :
    l[k] = a := by
  subst h
  have hk0 : k = 0 := by simpa using hk
  subst hk0
  rfl

theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section General
variable {s si u : Shape} (d : ScatterDims s si u)

theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

theorem start_of_not_mem {w : Nat} (j : u.Idx) (idx : IVec si w) (a : Fin s.rank)
    (ha : a ∉ d.scatterDimsToOperandDims) : d.start j idx a = 0 := by
  unfold ScatterDims.start
  rw [dif_neg ha]

theorem window_of_not_mem (j : u.Idx) (a : Fin s.rank) (ha : a ∉ d.sKept) : d.window j a = 0 := by
  unfold ScatterDims.window
  rw [dif_neg ha]

theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

section Rows
variable {P C N w : Nat}

theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- A scatter-add of whole rows leaves at (p, ch) the operand's entry plus the sum of the update rows whose index word, read signed, is p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

end Idealize.ShloMosaic.ScatterSum

end
-- ==== Proof.LibGatherRows.lean ====
import Idealize.ShloMosaic.PureOps.ShapeOps
import Idealize.ShloMosaic.Lib.ValueIdx
import proofs.«400996_j66279935312387_2_alg».proof.Proof.LibScatterSum

namespace Idealize.ShloMosaic.GatherRows

open Idealize.ShloMosaic Idealize.ShloMosaic.ValueIdx Idealize.ShloMosaic.ScatterSum

section Rows
variable {α : Type} {P C N w : Nat}

theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

/-- A gather of whole rows reads at (n, ch) the row that idx[n, 0] names, read signed and clamped into range, at column ch. -/
theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.LibTakeFill.lean ====
import Idealize.ShloMosaic.PureOps.Ideal
import Idealize.ShloMosaic.PureOps.Contract
import Idealize.ShloMosaic.Lib.ValueIdx
import Idealize.ShloMosaic.Lib.ValueLayout
import Idealize.ShloMosaic.Lib.IdealHost
import Idealize.ShloMosaic.Lib.Pipeline.Value
import proofs.«400996_j66279935312387_2_alg».proof.Proof.LibGatherRows
import proofs.«400996_j66279935312387_2_alg».proof.Proof.LibScatterSum

namespace Idealize.ShloMosaic.TakeFill

open Idealize.ShloMosaic Idealize.ShloMosaic.ValueIdx Idealize.ShloMosaic.GatherRows Idealize.ShloMosaic.ScatterSum

open scoped BigOperators

theorem wrap_select (w cP : BitVec 32) (h0 : 0 ≤ w.toInt) :
    Scalar.select (IntOp.cmpi .slt w 0#32) (IntOp.addi w cP) w = w := by
  have hlt : w.slt 0#32 = false := by
    rw [Bool.eq_false_iff]
    intro h
    have := BitVec.slt_iff_toInt_lt.mp h
    have h00 : (0#32 : BitVec 32).toInt = 0 := by decide
    omega
  have hc : IntOp.cmpi .slt w 0#32 = 0#1 := by
    show BitVec.ofBool (w.slt 0#32) = 0#1
    rw [hlt]; rfl
  rw [hc]
  exact select_zero _ _

theorem range_mask (w cM : BitVec 32) (h0 : 0 ≤ w.toInt) (h1 : w.toInt ≤ cM.toInt) :
    IntOp.andi (IntOp.cmpi .sge w 0#32) (IntOp.cmpi .sle w cM) = 1#1 := by
  have h00 : (0#32 : BitVec 32).toInt = 0 := by decide
  have ha : (0#32 : BitVec 32).sle w = true := BitVec.sle_iff_toInt_le.mpr (by omega)
  have hb : w.sle cM = true := BitVec.sle_iff_toInt_le.mpr h1
  show IntOp.andi (BitVec.ofBool ((0#32 : BitVec 32).sle w)) (BitVec.ofBool (w.sle cM)) = 1#1
  rw [ha, hb]
  decide

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    have e : IntOp.andi (1#1 : BitVec 1) 1#1 = 1#1 := by decide
    rw [e]
    exact ih

section Take
variable {α : Type} {P C N : Nat}

theorem col_apply {β : Type} (bcol : (⟨1, ![N]⟩ : Shape).BroadcastsInDim ⟨2, ![N, 1]⟩ ![0])
    (v : (⟨1, ![N]⟩ : Shape).Idx → β) (n : Fin N) (z : Fin 1) :
    broadcastInDim ⟨2, ![N, 1]⟩ ![0] bcol v (ix2 n z) = v (ix1 n) := by
  refine broadcastInDim_apply _ bcol v (ix2 n z) (ix1 n) fun a => ?_
  match a with
  | ⟨0, _⟩ =>
    show n.val = if N = 1 then 0 else n.val
    have := n.isLt
    split <;> omega

theorem rows_apply {β : Type} (bm : (⟨1, ![N]⟩ : Shape).BroadcastsInDim ⟨2, ![N, C]⟩ ![0])
    (v : (⟨1, ![N]⟩ : Shape).Idx → β) (n : Fin N) (ch : Fin C) :
    broadcastInDim ⟨2, ![N, C]⟩ ![0] bm v (ix2 n ch) = v (ix1 n) := by
  refine broadcastInDim_apply _ bm v (ix2 n ch) (ix1 n) fun a => ?_
  match a with
  | ⟨0, _⟩ =>
    show n.val = if N = 1 then 0 else n.val
    have := n.isLt
    split <;> omega

/-- Where every index is a row number the wrap does nothing and the range mask is all ones, so the guarded take is the plain row gather. -/
theorem take_fill_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (b0 : (⟨0, ![]⟩ : Shape).BroadcastsInDim ⟨1, ![N]⟩ ![])
    (bcol : (⟨1, ![N]⟩ : Shape).BroadcastsInDim ⟨2, ![N, 1]⟩ ![0])
    (b0c : (⟨0, ![]⟩ : Shape).BroadcastsInDim ⟨2, ![N, 1]⟩ ![])
    (b11 : (⟨1, ![1]⟩ : Shape).BroadcastsInDim ⟨2, ![1, 1]⟩ ![1])
    (b11c : (⟨2, ![1, 1]⟩ : Shape).BroadcastsInDim ⟨2, ![N, 1]⟩ ![0, 1])
    (red : (⟨2, ![N, 1]⟩ : Shape).ReducesTo [1] ⟨1, ![N]⟩) (hu : 0 < (⟨0, ![]⟩ : Shape).numel)
    (bm : (⟨1, ![N]⟩ : Shape).BroadcastsInDim ⟨2, ![N, C]⟩ ![0])
    (cP cM : BitVec 32) (hcM : cM.toInt = (P : Int) - 1)
    (src : IVec (⟨1, ![N]⟩ : Shape) 32) (x : (⟨2, ![P, C]⟩ : Shape).Idx → α) (y : (⟨2, ![N, C]⟩ : Shape).Idx → α)
    (hs : ∀ n : Fin N, 0 ≤ (src (ix1 n)).toInt ∧ (src (ix1 n)).toInt < (P : Int)) (n : Fin N) (ch : Fin C) :
    select
        (broadcastInDim ⟨2, ![N, C]⟩ ![0] bm
          (Host.reduce IntOp.andi
            (andi
              (cmpi .sge
                (broadcastInDim ⟨2, ![N, 1]⟩ ![0] bcol
                  (select (cmpi .slt src (broadcastInDim ⟨1, ![N]⟩ ![] b0 (constantI ⟨0, ![]⟩ 32 0#32)))
                    (addi src (broadcastInDim ⟨1, ![N]⟩ ![] b0 (constantI ⟨0, ![]⟩ 32 cP))) src))
                (broadcastInDim ⟨2, ![N, 1]⟩ ![] b0c (constantI ⟨0, ![]⟩ 32 0#32)))
              (cmpi .sle
                (broadcastInDim ⟨2, ![N, 1]⟩ ![0] bcol
                  (select (cmpi .slt src (broadcastInDim ⟨1, ![N]⟩ ![] b0 (constantI ⟨0, ![]⟩ 32 0#32)))
                    (addi src (broadcastInDim ⟨1, ![N]⟩ ![] b0 (constantI ⟨0, ![]⟩ 32 cP))) src))
                (broadcastInDim ⟨2, ![N, 1]⟩ ![0, 1] b11c
                  (broadcastInDim ⟨2, ![1, 1]⟩ ![1] b11 (constantI ⟨1, ![1]⟩ 32 cM)))))
            (constantI ⟨0, ![]⟩ 1 1#1) red hu))
        (Host.gather d x
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src)))
        y (ix2 n ch)
      = x (ix2 (⟨(src (ix1 n)).toInt.toNat, by have := hs n; omega⟩ : Fin P) ch) := by

  have hidx : ∀ m : Fin N,
      (select (cmpi .slt src (broadcastInDim ⟨1, ![N]⟩ ![] b0 (constantI ⟨0, ![]⟩ 32 0#32)))
        (addi src (broadcastInDim ⟨1, ![N]⟩ ![] b0 (constantI ⟨0, ![]⟩ 32 cP))) src) (ix1 m) = src (ix1 m) :=
    fun m => wrap_select (src (ix1 m)) cP (hs m).1

  have hcol : ∀ (m : Fin N) (z : Fin 1),
      (broadcastInDim ⟨2, ![N, 1]⟩ ![0] bcol
        (select (cmpi .slt src (broadcastInDim ⟨1, ![N]⟩ ![] b0 (constantI ⟨0, ![]⟩ 32 0#32)))
          (addi src (broadcastInDim ⟨1, ![N]⟩ ![] b0 (constantI ⟨0, ![]⟩ 32 cP))) src)) (ix2 m z) = src (ix1 m) :=
    fun m z => (col_apply bcol _ m z).trans (hidx m)

  have hmask : ∀ i : (⟨2, ![N, 1]⟩ : Shape).Idx,
      (andi
        (cmpi .sge
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src))
          (broadcastInDim ⟨2, ![N, 1]⟩ ![] b0c (constantI ⟨0, ![]⟩ 32 0#32)))
        (cmpi .sle
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src))
          (broadcastInDim ⟨2, ![N, 1]⟩ ![0, 1] b11c
            (broadcastInDim ⟨2, ![1, 1]⟩ ![1] b11 (constantI ⟨1, ![1]⟩ 32 cM))))) i = 1#1 := by
    intro i
    obtain ⟨m, z, rfl⟩ : ∃ m z, i = ix2 m z := ⟨i 0, i 1, eq_ix2 i⟩
    show IntOp.andi (IntOp.cmpi .sge (_ : BitVec 32) _) (IntOp.cmpi .sle (_ : BitVec 32) _) = 1#1
    rw [hcol m z]
    exact range_mask (src (ix1 m)) cM (hs m).1 (by have := (hs m).2; omega)
  rw [select_apply, rows_apply bm _ n ch,
    reduce_andi_ones _ (constantI ⟨0, ![]⟩ 1 1#1) red hu hmask (fun _ => rfl) (ix1 n), select_one,
    gather_rows_apply hP d hod hcd hob hsm hiv hss x _ n ch]
  congr 2
  refine Fin.ext ?_
  show min (_ : BitVec 32).toInt.toNat (P - 1) = (src (ix1 n)).toInt.toNat
  rw [hcol n 0]
  have := hs n
  omega

end Take

section Scatter
variable {P C N : Nat}

/-- Rows scattered into zeros: row p ends at zero plus the sum of the update rows whose destination word, read signed, is p. -/
theorem scatter_zero_rows_apply
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1)
    (bz : (⟨0, ![]⟩ : Shape).BroadcastsInDim ⟨2, ![P, C]⟩ ![])
    (bcol : (⟨1, ![N]⟩ : Shape).BroadcastsInDim ⟨2, ![N, 1]⟩ ![0])
    (dst : IVec (⟨1, ![N]⟩ : Shape) 32) (upd : (⟨2, ![N, C]⟩ : Shape).Idx → EReal) (p : Fin P) (ch : Fin C) :
    Host.scatterAdd (F := Ideal) (φ := .f32) d
        (broadcastInDim ⟨2, ![P, C]⟩ ![] bz (constant (F := Ideal) ⟨0, ![]⟩ .f32 0x00000000#32))
        (broadcastInDim ⟨2, ![N, 1]⟩ ![0] bcol dst) upd (ix2 p ch)
      = 0 + ∑ n ∈ Finset.univ.filter (fun n : Fin N => (dst (ix1 n)).toInt = (p.val : Int)), upd (ix2 n ch) := by
  show Ideal.hostScatterAdd d _ _ upd (ix2 p ch) = _
  rw [scatterAdd_rows_apply d huw hiw hsd hiv]
  congr 1
  · rw [broadcastInDim_scalar_apply, constant_apply]
    exact Ideal.ofBits_zero_f32
  · refine Finset.sum_congr (Finset.filter_congr fun n _ => ?_) fun _ _ => rfl
    rw [col_apply bcol dst n 0]

end Scatter

section Members
variable {α : Type}

theorem row_apply {R N : Nat} (r : Nat) (X : (⟨2, ![R, N]⟩ : Shape).Idx → α)
    (hs : (⟨2, ![R, N]⟩ : Shape).Slices ![r, 0] ⟨2, ![1, N]⟩) (hc : (⟨2, ![1, N]⟩ : Shape).ShapeCasts ⟨1, ![N]⟩)
    (l : Fin R) (hl : l.val = r) (n : Fin N) :
    shapeCast ⟨1, ![N]⟩ (extractStridedSlice ⟨2, ![1, N]⟩ ![r, 0] X hs) hc (ix1 n) = X (ix2 l n) := by
  rw [shapeCast_1a_a_apply]
  exact slice2_axis0_apply r X hs 0 n l (by rw [hl]; rfl)

theorem member3_apply {L A B : Nat} (r : Nat) (X : (⟨3, ![L, A, B]⟩ : Shape).Idx → α)
    (hs : (⟨3, ![L, A, B]⟩ : Shape).Slices ![r, 0, 0] ⟨3, ![1, A, B]⟩)
    (hc : (⟨3, ![1, A, B]⟩ : Shape).ShapeCasts ⟨2, ![A, B]⟩) (l : Fin L) (hl : l.val = r) (i : Fin A) (j : Fin B) :
    shapeCast ⟨2, ![A, B]⟩ (extractStridedSlice ⟨3, ![1, A, B]⟩ ![r, 0, 0] X hs) hc (ix2 i j) = X (ix3 l i j) := by
  rw [shapeCast_1ab_ab_apply]
  refine extractStridedSlice_apply _ X hs _ (ix3 l i j) fun a => ?_
  match a with
  | ⟨0, _⟩ => show l.val = r + 0; rw [hl]; rfl
  | ⟨1, _⟩ => exact (Nat.zero_add _).symm
  | ⟨2, _⟩ => exact (Nat.zero_add _).symm

end Members

end Idealize.ShloMosaic.TakeFill
-- ==== Proof.KHostTake.lean ====
import proofs.«400996_j66279935312387_2_alg».proof.Proof.Gen.KernelIdeal.Launch
import proofs.«400996_j66279935312387_2_alg».proof.Proof.Spec
import proofs.«400996_j66279935312387_2_alg».proof.Proof.LibTakeFill

namespace Cert.KernelIdeal.KHost

open Idealize.ShloMosaic Idealize.ShloMosaic.ValueIdx Idealize.ShloMosaic.StableHlo
open Cert.KernelIdeal.Gen

/-- Vectors that agree at every entry are equal. -/
theorem ext_ix1 {α : Type} {n : Nat} {f g : (⟨1, ![n]⟩ : Shape).Idx → α} (h : ∀ a, f (ix1 a) = g (ix1 a)) : f = g :=
  funext fun i => by rw [eq_ix1 i]; exact h _

/-- Matrices that agree at every entry are equal. -/
theorem ext_ix2 {α : Type} {m n : Nat} {f g : (⟨2, ![m, n]⟩ : Shape).Idx → α}
    (h : ∀ a b, f (ix2 a b) = g (ix2 a b)) : f = g :=
  funext fun i => by rw [eq_ix2 i]; exact h _ _

/-- The index words, a negative one wrapped once by the row count, laid as a column. -/
noncomputable def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A source word in [0, 100000) is its own wrap, passes the range test and is its own clamp: the take reads the row it names. -/
theorem take_eq (x : Cert.Spec.Mat 100000 43) (src : IVec S1600000 32)
    (hs : ∀ n : Fin 1600000, 0 ≤ (src (ix1 n)).toInt ∧ (src (ix1 n)).toInt < 100000) :
    (select
        (broadcastInDim S1600000x43 ![0] bcast_S1600000_S1600000x43_0
          (Host.reduce IntOp.andi
            (andi
              (cmpi .sge (wrapCol src) (broadcastInDim S1600000x1 ![] bcast_S_S1600000x1 (constantI S_ 32 0#32)))
              (cmpi .sle (wrapCol src)
                (broadcastInDim S1600000x1 ![0, 1] bcast_S1x1_S1600000x1_0_1
                  (broadcastInDim S1x1 ![1] bcast_S1_S1x1_1 (constantI S1 32 99999#32)))))
            (constantI S_ 1 1#1) reducesTo_S1600000x1_S1600000_d1 h_S_))
        (Host.gather gather_S100000x43_S1600000x1_S1600000x43_1_0_n_n_0_1_143 x (wrapCol src))
        (broadcastInDim S1600000x43 ![] bcast_S_S1600000x43 (constant (F := Ideal) S_ .f32 0x7FC00000#32))
      : Cert.Spec.Mat 1600000 43)
      = Cert.Spec.gath (P := 100000) (by decide) x src :=
  ext_ix2 fun n ch => by
    refine (TakeFill.take_fill_apply (P := 100000) (by decide) _ rfl rfl rfl rfl rfl rfl _ _ _ _ _ _ _ _
      (100000#32) (99999#32) (by decide) src x _ hs n ch).trans (congrArg (fun r => x (ix2 r ch)) (Fin.ext ?_))
    show (src (ix1 n)).toInt.toNat = min (src (ix1 n)).toInt.toNat (100000 - 1)
    have := hs n
    omega

end Cert.KernelIdeal.KHost
-- ==== Proof.KHost0.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v1_eq (W : Valuation τ sig (Elt Ideal)) :
    (StableHlo.after (hostOps0 (F := Ideal)) W (Proc.devRef .tc main_v1) : IVec S1600000 32)
      = Cert.Spec.row (W (Proc.devRef .tc main_arg1) : IVec S2x1600000 32) 0 := by
  after_results
  exact ext_ix1 (TakeFill.row_apply 0 _ _ _ 0 rfl)

theorem v3_eq (W : Valuation τ sig (Elt Ideal)) :
    (StableHlo.after (hostOps0 (F := Ideal)) W (Proc.devRef .tc main_v3) : IVec S1600000 32)
      = Cert.Spec.row (W (Proc.devRef .tc main_arg1) : IVec S2x1600000 32) 1 := by
  after_results
  exact ext_ix1 (TakeFill.row_apply 1 _ _ _ 1 rfl)

theorem v4_eq (W : Valuation τ sig (Elt Ideal)) :
    (StableHlo.after (hostOps0 (F := Ideal)) W (Proc.devRef .tc main_v4) : Cert.Spec.Mat 43 129)
      = Cert.Spec.tr (W (Proc.devRef .tc main_arg4) : Cert.Spec.Mat 129 43) := by
  after_results
  exact ext_ix2 (transpose_ix2_apply _ _)

theorem v5_eq (W : Valuation τ sig (Elt Ideal)) :
    (StableHlo.after (hostOps0 (F := Ideal)) W (Proc.devRef .tc main_v5) : Cert.Spec.Mat 43 129)
      = Cert.Spec.tr (W (Proc.devRef .tc main_arg5) : Cert.Spec.Mat 129 43) := by
  after_results
  exact ext_ix2 (transpose_ix2_apply _ _)

theorem v7_eq (W : Valuation τ sig (Elt Ideal)) :
    (StableHlo.after (hostOps0 (F := Ideal)) W (Proc.devRef .tc main_v7) : Cert.Spec.Mat 43 43)
      = Cert.Spec.member (W (Proc.devRef .tc main_arg3) : S5x43x43.Idx → EReal) 0 := by
  after_results
  exact ext_ix2 (TakeFill.member3_apply 0 _ _ _ 0 rfl)

theorem v22_eq (W : Valuation τ sig (Elt Ideal)) :
    (StableHlo.after (hostOps2 (F := Ideal)) W (Proc.devRef .tc main_v22) : Cert.Spec.Mat 43 43)
      = Cert.Spec.member (W (Proc.devRef .tc main_arg3) : S5x43x43.Idx → EReal) 1 := by
  after_results
  exact ext_ix2 (TakeFill.member3_apply 1 _ _ _ 1 rfl)

theorem v37_eq (W : Valuation τ sig (Elt Ideal)) :
    (StableHlo.after (hostOps4 (F := Ideal)) W (Proc.devRef .tc main_v37) : Cert.Spec.Mat 43 43)
      = Cert.Spec.member (W (Proc.devRef .tc main_arg3) : S5x43x43.Idx → EReal) 2 := by
  after_results
  exact ext_ix2 (TakeFill.member3_apply 2 _ _ _ 2 rfl)

theorem v52_eq (W : Valuation τ sig (Elt Ideal)) :
    (StableHlo.after (hostOps6 (F := Ideal)) W (Proc.devRef .tc main_v52) : Cert.Spec.Mat 43 43)
      = Cert.Spec.member (W (Proc.devRef .tc main_arg3) : S5x43x43.Idx → EReal) 3 := by
  after_results
  exact ext_ix2 (TakeFill.member3_apply 3 _ _ _ 3 rfl)

theorem v67_eq (W : Valuation τ sig (Elt Ideal)) :
    (StableHlo.after (hostOps8 (F := Ideal)) W (Proc.devRef .tc main_v67) : Cert.Spec.Mat 43 43)
      = Cert.Spec.member (W (Proc.devRef .tc main_arg3) : S5x43x43.Idx → EReal) 4 := by
  after_results
  exact ext_ix2 (TakeFill.member3_apply 4 _ _ _ 4 rfl)

end Cert.KernelIdeal.KHost
-- ==== Proof.KHost10.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v83_eq (W : Valuation τ sig (Elt Ideal)) :
    (StableHlo.after (hostOps10 (F := Ideal)) W (Proc.devRef .tc main_v83) : Cert.Spec.Mat 2048 43)
      = Cert.Spec.scat (W (Proc.devRef .tc main_arg2) : IVec S100000 32)
          (W (Proc.devRef .tc main_v80) : Cert.Spec.Mat 100000 43) := by
  after_results
  exact ext_ix2 (TakeFill.scatter_zero_rows_apply _ rfl rfl rfl rfl _ _ _ _)

theorem v84_eq (W : Valuation τ sig (Elt Ideal)) :
    (StableHlo.after (hostOps10 (F := Ideal)) W (Proc.devRef .tc main_v84) : Cert.Spec.Mat 43 392)
      = Cert.Spec.tr (W (Proc.devRef .tc main_arg8) : Cert.Spec.Mat 392 43) := by
  after_results
  exact ext_ix2 (transpose_ix2_apply _ _)

theorem v85_eq (W : Valuation τ sig (Elt Ideal)) :
    (StableHlo.after (hostOps10 (F := Ideal)) W (Proc.devRef .tc main_v85) : Cert.Spec.Mat 392 392)
      = Cert.Spec.tr (W (Proc.devRef .tc main_arg10) : Cert.Spec.Mat 392 392) := by
  after_results
  exact ext_ix2 (transpose_ix2_apply _ _)

theorem v86_eq (W : Valuation τ sig (Elt Ideal)) :
    (StableHlo.after (hostOps10 (F := Ideal)) W (Proc.devRef .tc main_v86) : Cert.Spec.Mat 392 392)
      = Cert.Spec.tr (W (Proc.devRef .tc main_arg12) : Cert.Spec.Mat 392 392) := by
  after_results
  exact ext_ix2 (transpose_ix2_apply _ _)

theorem v87_eq (W : Valuation τ sig (Elt Ideal)) :
    (StableHlo.after (hostOps10 (F := Ideal)) W (Proc.devRef .tc main_v87) : Cert.Spec.Mat 392 138)
      = Cert.Spec.tr (W (Proc.devRef .tc main_arg14) : Cert.Spec.Mat 138 392) := by
  after_results
  exact ext_ix2 (transpose_ix2_apply _ _)

theorem v88_apply (W : Valuation τ sig (Elt Ideal)) (j : Fin 392) :
    (StableHlo.after (hostOps10 (F := Ideal)) W (Proc.devRef .tc main_v88) : Cert.Spec.Mat 1 392) (ix2 0 j)
      = Cert.Spec.vec (W (Proc.devRef .tc main_arg9) : S392.Idx → EReal) j := by
  after_results
  exact shapeCast_a_1a_apply _ _ 0 j

theorem v89_apply (W : Valuation τ sig (Elt Ideal)) (j : Fin 392) :
    (StableHlo.after (hostOps10 (F := Ideal)) W (Proc.devRef .tc main_v89) : Cert.Spec.Mat 1 392) (ix2 0 j)
      = Cert.Spec.vec (W (Proc.devRef .tc main_arg11) : S392.Idx → EReal) j := by
  after_results
  exact shapeCast_a_1a_apply _ _ 0 j

theorem v90_apply (W : Valuation τ sig (Elt Ideal)) (j : Fin 392) :
    (StableHlo.after (hostOps10 (F := Ideal)) W (Proc.devRef .tc main_v90) : Cert.Spec.Mat 1 392) (ix2 0 j)
      = Cert.Spec.vec (W (Proc.devRef .tc main_arg13) : S392.Idx → EReal) j := by
  after_results
  exact shapeCast_a_1a_apply _ _ 0 j

theorem v91_apply (W : Valuation τ sig (Elt Ideal)) (j : Fin 138) :
    (StableHlo.after (hostOps10 (F := Ideal)) W (Proc.devRef .tc main_v91) : Cert.Spec.Mat 1 138) (ix2 0 j)
      = Cert.Spec.vec (W (Proc.devRef .tc main_arg15) : S138.Idx → EReal) j := by
  after_results
  exact shapeCast_a_1a_apply _ _ 0 j

end Cert.KernelIdeal.KHost
-- ==== Proof.KHostTakeInst.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

/-- Transport along a type equation and back is the identity. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Transport along a reflexive type equation is the identity, in either direction. -/
theorem ofBuf_of {sig : RefSig} {Val : EltTy → Type} (r : Ref sig .tc) (h1 h2) (v : r.ty.Contents Val) :
    (TRef.of r rfl h1 h2 : TRef sig r.ty).ofBuf v = v := rfl

theorem toBuf_of {sig : RefSig} {Val : EltTy → Type} (r : Ref sig .tc) (h1 h2) (v : r.ty.Contents Val) :
    (TRef.of r rfl h1 h2 : TRef sig r.ty).toBuf v = v := rfl

theorem v9_eq (W : Valuation τ sig (Elt Ideal))
    (hs : ∀ n : Fin 1600000, 0 ≤ ((W (Proc.devRef .tc main_v1) : IVec S1600000 32) (ix1 n)).toInt
      ∧ ((W (Proc.devRef .tc main_v1) : IVec S1600000 32) (ix1 n)).toInt < 100000) :
    (StableHlo.after (hostOps1 (F := Ideal)) W (Proc.devRef .tc main_v9) : Cert.Spec.Mat 1600000 43)
      = Cert.Spec.gath (P := 100000) (by decide) (W (Proc.devRef .tc main_v8) : Cert.Spec.Mat 100000 43)
          (W (Proc.devRef .tc main_v1) : IVec S1600000 32) := by
  after_results_simp
  simp only [ofBuf_toBuf]
  rw [ofBuf_of, ofBuf_of, toBuf_of]
  exact take_eq _ _ hs

theorem v24_eq (W : Valuation τ sig (Elt Ideal))
    (hs : ∀ n : Fin 1600000, 0 ≤ ((W (Proc.devRef .tc main_v1) : IVec S1600000 32) (ix1 n)).toInt
      ∧ ((W (Proc.devRef .tc main_v1) : IVec S1600000 32) (ix1 n)).toInt < 100000) :
    (StableHlo.after (hostOps3 (F := Ideal)) W (Proc.devRef .tc main_v24) : Cert.Spec.Mat 1600000 43)
      = Cert.Spec.gath (P := 100000) (by decide) (W (Proc.devRef .tc main_v23) : Cert.Spec.Mat 100000 43)
          (W (Proc.devRef .tc main_v1) : IVec S1600000 32) := by
  after_results_simp
  simp only [ofBuf_toBuf]
  rw [ofBuf_of, ofBuf_of, toBuf_of]
  exact take_eq _ _ hs

theorem v39_eq (W : Valuation τ sig (Elt Ideal))
    (hs : ∀ n : Fin 1600000, 0 ≤ ((W (Proc.devRef .tc main_v1) : IVec S1600000 32) (ix1 n)).toInt
      ∧ ((W (Proc.devRef .tc main_v1) : IVec S1600000 32) (ix1 n)).toInt < 100000) :
    (StableHlo.after (hostOps5 (F := Ideal)) W (Proc.devRef .tc main_v39) : Cert.Spec.Mat 1600000 43)
      = Cert.Spec.gath (P := 100000) (by decide) (W (Proc.devRef .tc main_v38) : Cert.Spec.Mat 100000 43)
          (W (Proc.devRef .tc main_v1) : IVec S1600000 32) := by
  after_results_simp
  simp only [ofBuf_toBuf]
  rw [ofBuf_of, ofBuf_of, toBuf_of]
  exact take_eq _ _ hs

theorem v54_eq (W : Valuation τ sig (Elt Ideal))
    (hs : ∀ n : Fin 1600000, 0 ≤ ((W (Proc.devRef .tc main_v1) : IVec S1600000 32) (ix1 n)).toInt
      ∧ ((W (Proc.devRef .tc main_v1) : IVec S1600000 32) (ix1 n)).toInt < 100000) :
    (StableHlo.after (hostOps7 (F := Ideal)) W (Proc.devRef .tc main_v54) : Cert.Spec.Mat 1600000 43)
      = Cert.Spec.gath (P := 100000) (by decide) (W (Proc.devRef .tc main_v53) : Cert.Spec.Mat 100000 43)
          (W (Proc.devRef .tc main_v1) : IVec S1600000 32) := by
  after_results_simp
  simp only [ofBuf_toBuf]
  rw [ofBuf_of, ofBuf_of, toBuf_of]
  exact take_eq _ _ hs

theorem v69_eq (W : Valuation τ sig (Elt Ideal))
    (hs : ∀ n : Fin 1600000, 0 ≤ ((W (Proc.devRef .tc main_v1) : IVec S1600000 32) (ix1 n)).toInt
      ∧ ((W (Proc.devRef .tc main_v1) : IVec S1600000 32) (ix1 n)).toInt < 100000) :
    (StableHlo.after (hostOps9 (F := Ideal)) W (Proc.devRef .tc main_v69) : Cert.Spec.Mat 1600000 43)
      = Cert.Spec.gath (P := 100000) (by decide) (W (Proc.devRef .tc main_v68) : Cert.Spec.Mat 100000 43)
          (W (Proc.devRef .tc main_v1) : IVec S1600000 32) := by
  after_results_simp
  simp only [ofBuf_toBuf]
  rw [ofBuf_of, ofBuf_of, toBuf_of]
  exact take_eq _ _ hs

end Cert.KernelIdeal.KHost
-- ==== Proof.KHostScat1.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v17_eq (W : Valuation τ sig (Elt Ideal)) :
    StableHlo.after (hostOps1_1 (F := Ideal)) W (Proc.devRef .tc main_v17)
      = Cert.Spec.scat (fun e => Cert.Spec.wrap 0x000186A0#32 (W (Proc.devRef .tc main_v3) e))
          (W (Proc.devRef .tc main_v9) : Cert.Spec.Mat 1600000 43) := by
  after_results_simp
  exact ext_ix2 (TakeFill.scatter_zero_rows_apply _ rfl rfl rfl rfl _ _ _ _)

theorem v18_apply (W : Valuation τ sig (Elt Ideal)) (j : Fin 129) :
    (StableHlo.after (hostOps1_1 (F := Ideal)) W (Proc.devRef .tc main_v18)) (ValueIdx.ix2 0 j)
      = Cert.Spec.vec (W (Proc.devRef .tc main_arg6)) j := by
  after_results
  exact shapeCast_a_1a_apply _ _ 0 j

theorem v19_apply (W : Valuation τ sig (Elt Ideal)) (j : Fin 129) :
    (StableHlo.after (hostOps1_1 (F := Ideal)) W (Proc.devRef .tc main_v19)) (ValueIdx.ix2 0 j)
      = Cert.Spec.vec (W (Proc.devRef .tc main_arg7)) j := by
  after_results
  exact shapeCast_a_1a_apply _ _ 0 j

end Cert.KernelIdeal.KHost
-- ==== Proof.KHostScat3.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v32_eq (W : Valuation τ sig (Elt Ideal)) :
    StableHlo.after (hostOps3_1 (F := Ideal)) W (Proc.devRef .tc main_v32)
      = Cert.Spec.scat (fun e => Cert.Spec.wrap 0x000186A0#32 (W (Proc.devRef .tc main_v3) e))
          (W (Proc.devRef .tc main_v24) : Cert.Spec.Mat 1600000 43) := by
  after_results_simp
  exact ext_ix2 (TakeFill.scatter_zero_rows_apply _ rfl rfl rfl rfl _ _ _ _)

theorem v33_apply (W : Valuation τ sig (Elt Ideal)) (j : Fin 129) :
    (StableHlo.after (hostOps3_1 (F := Ideal)) W (Proc.devRef .tc main_v33)) (ValueIdx.ix2 0 j)
      = Cert.Spec.vec (W (Proc.devRef .tc main_arg6)) j := by
  after_results
  exact shapeCast_a_1a_apply _ _ 0 j

theorem v34_apply (W : Valuation τ sig (Elt Ideal)) (j : Fin 129) :
    (StableHlo.after (hostOps3_1 (F := Ideal)) W (Proc.devRef .tc main_v34)) (ValueIdx.ix2 0 j)
      = Cert.Spec.vec (W (Proc.devRef .tc main_arg7)) j := by
  after_results
  exact shapeCast_a_1a_apply _ _ 0 j

end Cert.KernelIdeal.KHost
-- ==== Proof.KHostScat5.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v47_eq (W : Valuation τ sig (Elt Ideal)) :
    StableHlo.after (hostOps5_1 (F := Ideal)) W (Proc.devRef .tc main_v47)
      = Cert.Spec.scat (fun e => Cert.Spec.wrap 0x000186A0#32 (W (Proc.devRef .tc main_v3) e))
          (W (Proc.devRef .tc main_v39) : Cert.Spec.Mat 1600000 43) := by
  after_results_simp
  exact ext_ix2 (TakeFill.scatter_zero_rows_apply _ rfl rfl rfl rfl _ _ _ _)

theorem v48_apply (W : Valuation τ sig (Elt Ideal)) (j : Fin 129) :
    (StableHlo.after (hostOps5_1 (F := Ideal)) W (Proc.devRef .tc main_v48)) (ValueIdx.ix2 0 j)
      = Cert.Spec.vec (W (Proc.devRef .tc main_arg6)) j := by
  after_results
  exact shapeCast_a_1a_apply _ _ 0 j

theorem v49_apply (W : Valuation τ sig (Elt Ideal)) (j : Fin 129) :
    (StableHlo.after (hostOps5_1 (F := Ideal)) W (Proc.devRef .tc main_v49)) (ValueIdx.ix2 0 j)
      = Cert.Spec.vec (W (Proc.devRef .tc main_arg7)) j := by
  after_results
  exact shapeCast_a_1a_apply _ _ 0 j

end Cert.KernelIdeal.KHost
-- ==== Proof.KHostScat7.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v62_eq (W : Valuation τ sig (Elt Ideal)) :
    StableHlo.after (hostOps7_1 (F := Ideal)) W (Proc.devRef .tc main_v62)
      = Cert.Spec.scat (fun e => Cert.Spec.wrap 0x000186A0#32 (W (Proc.devRef .tc main_v3) e))
          (W (Proc.devRef .tc main_v54) : Cert.Spec.Mat 1600000 43) := by
  after_results_simp
  exact ext_ix2 (TakeFill.scatter_zero_rows_apply _ rfl rfl rfl rfl _ _ _ _)

theorem v63_apply (W : Valuation τ sig (Elt Ideal)) (j : Fin 129) :
    (StableHlo.after (hostOps7_1 (F := Ideal)) W (Proc.devRef .tc main_v63)) (ValueIdx.ix2 0 j)
      = Cert.Spec.vec (W (Proc.devRef .tc main_arg6)) j := by
  after_results
  exact shapeCast_a_1a_apply _ _ 0 j

theorem v64_apply (W : Valuation τ sig (Elt Ideal)) (j : Fin 129) :
    (StableHlo.after (hostOps7_1 (F := Ideal)) W (Proc.devRef .tc main_v64)) (ValueIdx.ix2 0 j)
      = Cert.Spec.vec (W (Proc.devRef .tc main_arg7)) j := by
  after_results
  exact shapeCast_a_1a_apply _ _ 0 j

end Cert.KernelIdeal.KHost
-- ==== Proof.KHostScat9.lean ====
import proofs.«400996_j66279935312387_2_alg».proof.Proof.KHostTake

namespace Cert.KernelIdeal.KHost

open Idealize.ShloMosaic Idealize.ShloMosaic.ValueIdx Idealize.ShloMosaic.StableHlo
open Cert.KernelIdeal.Gen

theorem v77_eq (W : Valuation τ sig (Elt Ideal)) :
    StableHlo.after (hostOps9_1 (F := Ideal)) W (Proc.devRef .tc main_v77)
      = Cert.Spec.scat (fun e => Cert.Spec.wrap 0x000186A0#32 (W (Proc.devRef .tc main_v3) e))
          (W (Proc.devRef .tc main_v69) : Cert.Spec.Mat 1600000 43) := by
  after_results_simp
  exact ext_ix2 (TakeFill.scatter_zero_rows_apply _ rfl rfl rfl rfl _ _ _ _)

theorem v78_apply (W : Valuation τ sig (Elt Ideal)) (j : Fin 129) :
    (StableHlo.after (hostOps9_1 (F := Ideal)) W (Proc.devRef .tc main_v78)) (ValueIdx.ix2 0 j)
      = Cert.Spec.vec (W (Proc.devRef .tc main_arg6)) j := by
  after_results
  exact shapeCast_a_1a_apply _ _ 0 j

theorem v79_apply (W : Valuation τ sig (Elt Ideal)) (j : Fin 129) :
    (StableHlo.after (hostOps9_1 (F := Ideal)) W (Proc.devRef .tc main_v79)) (ValueIdx.ix2 0 j)
      = Cert.Spec.vec (W (Proc.devRef .tc main_arg7)) j := by
  after_results
  exact shapeCast_a_1a_apply _ _ 0 j

end Cert.KernelIdeal.KHost
-- ==== Proof.KHost.lean ====
import proofs.«400996_j66279935312387_2_alg».proof.Proof.KHost0
import proofs.«400996_j66279935312387_2_alg».proof.Proof.KHost10
import proofs.«400996_j66279935312387_2_alg».proof.Proof.KHostTakeInst
import proofs.«400996_j66279935312387_2_alg».proof.Proof.KHostScat1
import proofs.«400996_j66279935312387_2_alg».proof.Proof.KHostScat3
import proofs.«400996_j66279935312387_2_alg».proof.Proof.KHostScat5
import proofs.«400996_j66279935312387_2_alg».proof.Proof.KHostScat7
import proofs.«400996_j66279935312387_2_alg».proof.Proof.KHostScat9
-- ==== Proof.KDense.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember
import proofs.«400996_j66279935312387_2_alg».proof.Proof.Spec

noncomputable section

namespace Cert.KDense

open Idealize.ShloMosaic Idealize.ShloMosaic.ValueIdx Idealize.ShloMosaic.StackMember
open scoped BigOperators

variable {P K C : Nat}

/-- A product accumulated into zeros holds at (p, q) row p of x against column q of w, for any three extents. -/
theorem matmul_entry {φ₁ φ₂ : FTy} (x : FVec Ideal ⟨2, ![P, K]⟩ φ₁) (w : FVec Ideal ⟨2, ![K, C]⟩ φ₂) (p : Fin P) (q : Fin C) :
    matmul (DotDims.plain P K C) none x w (constant (F := Ideal) ⟨2, ![P, C]⟩ .f32 0x00000000#32) (ix2 p q)
      = Cert.Spec.dot x w p q := by
  rw [matmul_zero_eq_dotGeneral]
  exact dotGeneral_plain_apply none x w p q

/-- Narrowing changes no extended real, and a one-row bias laid along the rows reads its column: product plus bias is the dense layer. -/
theorem dense_entry (d : DotDims ⟨2, ![P, K]⟩ ⟨2, ![K, C]⟩ ⟨2, ![P, C]⟩) (hd : d = DotDims.plain P K C)
    (x : FVec Ideal ⟨2, ![P, K]⟩ .f32) (w : FVec Ideal ⟨2, ![K, C]⟩ .f32) (b : FVec Ideal ⟨2, ![1, C]⟩ .f32)
    (hx : FTy.bf16.bits < FTy.f32.bits) (hw : FTy.bf16.bits < FTy.f32.bits)
    (hb : (⟨2, ![1, C]⟩ : Shape).Broadcasts ⟨2, ![P, C]⟩) (p : Fin P) (q : Fin C) :
    addf (matmul d none (truncf .bf16 x hx) (truncf .bf16 w hw) (constant (F := Ideal) ⟨2, ![P, C]⟩ .f32 0x00000000#32))
        (broadcastTo ⟨2, ![P, C]⟩ b hb) (ix2 p q)
      = Cert.Spec.dense x w (fun j => b (ix2 (0 : Fin 1) j)) (ix2 p q) := by
  subst hd
  rw [addf_apply, matmul_entry, broadcastTo_1b_ab_apply]
  rfl

theorem dense_eq (d : DotDims ⟨2, ![P, K]⟩ ⟨2, ![K, C]⟩ ⟨2, ![P, C]⟩) (hd : d = DotDims.plain P K C)
    (x : FVec Ideal ⟨2, ![P, K]⟩ .f32) (w : FVec Ideal ⟨2, ![K, C]⟩ .f32) (b : FVec Ideal ⟨2, ![1, C]⟩ .f32)
    (hx : FTy.bf16.bits < FTy.f32.bits) (hw : FTy.bf16.bits < FTy.f32.bits)
    (hb : (⟨2, ![1, C]⟩ : Shape).Broadcasts ⟨2, ![P, C]⟩) :
    addf (matmul d none (truncf .bf16 x hx) (truncf .bf16 w hw) (constant (F := Ideal) ⟨2, ![P, C]⟩ .f32 0x00000000#32))
        (broadcastTo ⟨2, ![P, C]⟩ b hb)
      = Cert.Spec.dense x w (fun j => b (ix2 (0 : Fin 1) j)) := by
  funext i
  obtain ⟨p, q, rfl⟩ : ∃ (p : Fin P) (q : Fin C), i = ix2 p q := ⟨i 0, i 1, eq_ix2 i⟩
  exact dense_entry d hd x w b hx hw hb p q

theorem relu_eq (y : FVec Ideal ⟨2, ![P, C]⟩ .f32) :
    maximumf y (broadcast ⟨2, ![P, C]⟩ (Scalar.ofBits (F := Ideal) .f32 0x00000000#32)) = Cert.Spec.relu y := rfl

end Cert.KDense

end
-- ==== Proof.KBlock.lean ====
import Idealize.ShloMosaic.Lib.Pipeline.Value
import Idealize.ShloMosaic.Lib.ValueIdx

namespace Cert.KBlock

open Idealize.ShloMosaic Idealize.ShloMosaic.ValueIdx

/-- Block ix of an array cut into blocks of sizes B. -/
abbrev block {α : Type} {S : Shape} (X : S.Idx → α) (B ix : Fin S.rank → ℕ) (b : ∀ a, ix a * B a + B a ≤ S.size a) :
    (⟨S.rank, B⟩ : Shape).Idx → α :=
  fun y => X ((Rect.unit (fun a => ix a * B a) B b).emb y)

theorem block_zero {α : Type} {S : Shape} (X : S.Idx → α) {ix : Fin S.rank → ℕ} (h : ix = 0) (b) : block X S.size ix b = X := by
  subst h
  exact funext fun y => congrArg X (funext fun a => Fin.ext (by
    rw [Rect.emb_apply]; show 0 * S.size a + 1 * (y a).val = (y a).val; omega))

/-- Entry (p, k) of block t of R rows is entry (R t + p, k) of the array. -/
theorem block_row {α : Type} {P C R : ℕ} (X : (⟨2, ![P, C]⟩ : Shape).Idx → α) {ix : Fin 2 → ℕ} {t : ℕ} (h : ix = ![t, 0]) (b)
    (p : Fin R) (k : Fin C) (r : Fin P) (hr : r.val = t * R + p.val) : block X ![R, C] ix b (ix2 p k) = X (ix2 r k) := by
  subst h
  exact congrArg X (funext fun a => Fin.ext (by
    match a with
    | ⟨0, _⟩ => show t * R + 1 * p.val = r.val; omega
    | ⟨1, _⟩ => show 0 * C + 1 * k.val = k.val; omega))

theorem ext2 {α : Type} {n0 n1 : ℕ} {X Y : (⟨2, ![n0, n1]⟩ : Shape).Idx → α} (h : ∀ p q, X (ix2 p q) = Y (ix2 p q)) : X = Y :=
  funext fun j => by rw [eq_ix2 j]; exact h _ _

/-- Row r of an array of at most n R rows lies in row block r / R. -/
theorem row_cover {P C : ℕ} (R n : ℕ) (hR : 0 < R) (hP : P ≤ n * R) (i : (⟨2, ![P, C]⟩ : Shape).Idx) :
    ∃ t : Fin n, ∀ (ix : Fin 2 → ℕ) b, ix = ![t.val, 0] →
      i ∈ (Rect.unit (s := ⟨2, ![P, C]⟩) (fun a => ix a * (![R, C] : Fin 2 → ℕ) a) ![R, C] b).set := by
  have h0 := idx2_lt0 i
  have h1 := idx2_lt1 i
  refine ⟨⟨(i 0).val / R, (Nat.div_lt_iff_lt_mul hR).2 (by omega)⟩, fun ix b h => ?_⟩
  subst h
  rw [Rect.mem_set_unit]
  intro a
  match a with
  | ⟨0, _⟩ => exact ⟨Nat.div_mul_le_self _ _, Nat.lt_div_mul_add hR⟩
  | ⟨1, _⟩ => show 0 * C ≤ (i 1).val ∧ (i 1).val < 0 * C + C; omega

theorem origin : (![0, 0] : Fin 2 → ℕ) = fun _ => 0 := funext fun a => by fin_cases a <;> rfl

/-- Reading a rank-two block through the rectangle that is the whole block gives the block. -/
theorem ld_whole {Val : EltTy → Type} {d : Fin 2 → ℕ} {e : EltTy} (inb) (X : (⟨2, d⟩ : Shape).Idx → Val e) :
    View.ld X (Rect.unit (s := ⟨2, d⟩) ![0, 0] d inb) = X :=
  View.ld_unit_zero origin inb X

/-- Writing it through that rectangle leaves what was written. -/
theorem canon_whole {Val : EltTy → Type} [∀ e, Nonempty (Val e)] {d : Fin 2 → ℕ} {e : EltTy} (inb) (w : (⟨2, d⟩ : Shape).Idx → Val e) :
    View.canon [(⟨Rect.unit (s := ⟨2, d⟩) ![0, 0] d inb, w⟩ : View.Piece Val ⟨2, d⟩ e)] = w :=
  View.canon_unit_zero origin inb w

end Cert.KBlock
-- ==== Proof.KLinCell.lean ====
import proofs.«400996_j66279935312387_2_alg».proof.Proof.Gen.KernelIdeal.Frame
import proofs.«400996_j66279935312387_2_alg».proof.Proof.KDense
import proofs.«400996_j66279935312387_2_alg».proof.Proof.KBlock

namespace Cert.KernelIdeal.KLin

open Idealize.ShloMosaic Idealize.ShloMosaic.ValueIdx
open Cert.KernelIdeal Cert.KernelIdeal.Gen Cert.Spec Cert.KBlock

/-- A result block as a function of the block of the states and the block of the weights. -/
abbrev Pay : Type := Vec Ideal S5000x43 .f32 → Vec Ideal S43x43 .f32 → FVec Ideal S5000x43 .f32

/-- Both payloads are the plain product of their two blocks: recasting a block to its own shape changes nothing. -/
theorem pay_entry : (∀ x w p q, k0_pay1 (F := Ideal) x w (ix2 p q) = dot x w p q)
    ∧ ∀ x w p q, k2_pay1 (F := Ideal) x w (ix2 p q) = dot x w p q := by
  constructor <;> intro x w p q <;> simp only [k0_pay1, k2_pay1, shapeCast_self] <;>
    exact Cert.KDense.matmul_entry (truncf .bf16 x bitsLt_bf16_f32) (truncf .bf16 w bitsLt_bf16_f32) p q

/-- A product of blocks on row block t of X and the whole of W is row block t of X · W. -/
theorem tile_lin {pay : Pay} (hpay : ∀ x w p q, pay x w (ix2 p q) = dot x w p q) (X : Mat 100000 43) (W : Mat 43 43)
    (t : Fin 20) {i0 i1 i2 : Fin 2 → ℕ} (hi : i0 = ![t.val, 0] ∧ i1 = 0 ∧ i2 = ![t.val, 0]) b0 b1 b2 :
    pay (block X S5000x43.size i0 b0) (block W S43x43.size i1 b1) = block (lin X W) S5000x43.size i2 b2 := by
  obtain ⟨h0, h1, h2⟩ := hi
  rw [block_zero W h1]
  refine ext2 fun p q => ?_
  have hr : t.val * 5000 + p.val < 100000 := by omega
  rw [hpay, block_row _ h2 b2 p q ⟨_, hr⟩ rfl]
  simp only [dot, fun k => block_row X h0 b0 p k ⟨_, hr⟩ rfl]
  rfl

theorem out_lin (pay : Pay) x0 x1 :
    (View.canon [⟨r2_0, pay (View.ld x0 r2_0) (View.ld x1 r2_1)⟩] : Vec Ideal S5000x43 .f32) = pay x0 x1 := by
  simp only [canon_whole, ld_whole]

end Cert.KernelIdeal.KLin
-- ==== Proof.KLin0.lean ====
import proofs.«400996_j66279935312387_2_alg».proof.Proof.KLinCell

namespace Cert.KernelIdeal.KLin0

open Idealize.ShloMosaic Idealize.ShloMosaic.TcCoe Cert.KernelIdeal Cert.KernelIdeal.Gen Cert.KernelIdeal.KLin Cert.KBlock

theorem tiles : ∀ t : Fin cfg0.N, win0_0.index t = ![t.val, 0] ∧ win0_1.index t = 0 ∧ win0_2.index t = ![t.val, 0] :=
  (by decide +kernel : ∀ t : Fin grid0.N, _)

variable (V : (c : Dev nD) → (b : Ref sig .tc) → Buf (Elt Ideal) ((c : Thread nD τ).loc b))

/-- Each point writes its row block of the product of the arrays the region finds, and the 20 row blocks cover the rows. -/
theorem arr (c : Dev nD) :
    (dat0 (F := Ideal) V c).arrAt 2 cfg0.N
      = Cert.Spec.lin (V c (Pipeline.arrRef spec0 0)) (V c (Pipeline.arrRef spec0 1)) :=
  (dat0 (F := Ideal) V c).arrAt_eq_of_cover 2 _
    (fun t _ => (after0_2 V c t).trans ((out_lin k0_pay1 _ _).trans
      (tile_lin (pay := k0_pay1) pay_entry.1 _ _ (t.cast N_0) (tiles t) _ _ _)))
    fun i => let ⟨t, h⟩ := row_cover 5000 20 (by decide) (by decide) i
      ⟨t.cast N_0.symm, flush0_2 _, (congrArg (i ∈ ·) (View.set_slice_whole _ _)).mpr (h _ _ (tiles _).2.2)⟩

end Cert.KernelIdeal.KLin0
-- ==== Proof.KGruCell.lean ====
import proofs.«400996_j66279935312387_2_alg».proof.Proof.Gen.KernelIdeal.Frame
import proofs.«400996_j66279935312387_2_alg».proof.Proof.KDense
import proofs.«400996_j66279935312387_2_alg».proof.Proof.KBlock

namespace Cert.KernelIdeal.KGruCell

open Idealize.ShloMosaic Idealize.ShloMosaic.ValueIdx
open Cert.KernelIdeal Cert.KernelIdeal.Gen Cert.Spec Cert.KBlock

theorem gates_apply (x : Vec Ideal S5000x43 .f32) (w : Vec Ideal S43x129 .f32) (p : Fin 5000) (j : Fin 129) :
    matmul dot_S5000x43_S43x129_S5000x129_1_0_0_1_n_n none (truncf (F := Ideal) .bf16 x bitsLt_bf16_f32)
        (truncf (F := Ideal) .bf16 w bitsLt_bf16_f32) (constant (F := Ideal) S5000x129 .f32 0x00000000#32) (ix2 p j)
      = dot x w p j :=
  Cert.KDense.matmul_entry _ _ p j

/-- The band of 43 gate columns that starts at column o. -/
theorem band (o : ℕ) (g : FVec Ideal S5000x129 .f32) (h : S5000x129.Slices ![0, o] S5000x43) (p : Fin 5000) (q : Fin 43)
    (hq : q.val + o < 129) : extractStridedSlice S5000x43 ![0, o] g h (ix2 p q) = g (ix2 p ⟨q.val + o, hq⟩) :=
  slice2_axis1_apply o g h p q _ (Nat.add_comm _ _)

theorem logistic_at {s : Shape} {φ : FTy} (x : FVec Ideal s φ) (i : s.Idx) : logistic x i = Ideal.logistic (x i) := rfl

theorem tanh_at {s : Shape} {φ : FTy} (x : FVec Ideal s φ) (i : s.Idx) : tanh x i = Ideal.tanh (x i) := rfl

/-- A result block as a function of the blocks of the messages, the states, the two gate matrices and the two bias rows. -/
abbrev Pay : Type := Vec Ideal S5000x43 .f32 → Vec Ideal S5000x43 .f32 → Vec Ideal S43x129 .f32 → Vec Ideal S43x129 .f32 →
  Vec Ideal S1x129 .f32 → Vec Ideal S1x129 .f32 → FVec Ideal S5000x43 .f32

/-- A block function that is, row by row, the cell of the specification at the row's two gate vectors. -/
def IsCell (pay : Pay) : Prop :=
  ∀ a h wi wh bi bh (p : Fin 5000) (q : Fin 43), pay a h wi wh bi bh (ix2 p q)
    = gruCell (fun j => dot a wi p j + bi (ix2 0 j)) (fun j => dot h wh p j + bh (ix2 0 j)) (h (ix2 p q)) q

/-- Both payloads are the cell: recasts of a block to its own shape are the identity, the rest acts entry by entry. -/
theorem isCell : IsCell k1_pay1 ∧ IsCell k3_pay1 := by
  constructor <;> intro a h wi wh bi bh p q <;>
    simp only [k1_pay1, k3_pay1, gruCell, shapeCast_self, addf_apply, mulf_apply, subf_apply, broadcast_apply, logistic_at,
      tanh_at, gates_apply, broadcastTo_1b_ab_apply, band 0 _ _ p q (by omega), band 43 _ _ p q (by omega),
      band 86 _ _ p q (by omega)] <;> rfl

/-- A cell function on row block t of the messages and of the states, with the gate matrices and bias rows whole, is row
    block t of the GRU update of the whole arrays: the update of a row reads that row only. -/
theorem tile_pay {pay : Pay} (hpay : IsCell pay) (A H : Mat 100000 43) (Wi Wh : Mat 43 129) (Bi Bh : Mat 1 129) (t : Fin 20)
    {i0 i1 i2 i3 i4 i5 i6 : Fin 2 → ℕ}
    (hi : i0 = ![t.val, 0] ∧ i1 = ![t.val, 0] ∧ i2 = 0 ∧ i3 = 0 ∧ i4 = 0 ∧ i5 = 0 ∧ i6 = ![t.val, 0]) b0 b1 b2 b3 b4 b5 b6 :
    pay (block A S5000x43.size i0 b0) (block H S5000x43.size i1 b1) (block Wi S43x129.size i2 b2) (block Wh S43x129.size i3 b3)
        (block Bi S1x129.size i4 b4) (block Bh S1x129.size i5 b5)
      = block (gru A H Wi Wh (fun j => Bi (ix2 0 j)) (fun j => Bh (ix2 0 j))) S5000x43.size i6 b6 := by
  obtain ⟨h0, h1, h2, h3, h4, h5, h6⟩ := hi
  rw [block_zero Wi h2, block_zero Wh h3, block_zero Bi h4, block_zero Bh h5]
  refine ext2 fun p q => ?_
  have hr : t.val * 5000 + p.val < 100000 := by omega
  rw [hpay, block_row _ h6 b6 p q ⟨_, hr⟩ rfl]
  simp only [dot, fun k => block_row A h0 b0 p k ⟨_, hr⟩ rfl, fun k => block_row H h1 b1 p k ⟨_, hr⟩ rfl]
  rfl

theorem out_pay (pay : Pay) x0 x1 x2 x3 x4 x5 :
    (View.canon [⟨r1_0, pay (View.ld x0 r1_0) (View.ld x1 r1_0) (View.ld x2 r1_1) (View.ld x3 r1_1) (View.ld x4 r1_2) (View.ld x5 r1_2)⟩]
      : Vec Ideal S5000x43 .f32) = pay x0 x1 x2 x3 x4 x5 := by
  simp only [canon_whole, ld_whole]

end Cert.KernelIdeal.KGruCell
-- ==== Proof.KGru1.lean ====
import proofs.«400996_j66279935312387_2_alg».proof.Proof.KGruCell

namespace Cert.KernelIdeal.KGru1

open Idealize.ShloMosaic Idealize.ShloMosaic.TcCoe Cert.KernelIdeal Cert.KernelIdeal.Gen Cert.KernelIdeal.KGruCell Cert.KBlock

theorem tiles : ∀ t : Fin cfg1.N, win1_0.index t = ![t.val, 0] ∧ win1_1.index t = ![t.val, 0] ∧ win1_2.index t = 0
    ∧ win1_3.index t = 0 ∧ win1_4.index t = 0 ∧ win1_5.index t = 0 ∧ win1_6.index t = ![t.val, 0] :=
  (by decide +kernel : ∀ t : Fin grid1.N, _)

/-- Each point writes its row block of the GRU update of the arrays the region finds, and the 20 row blocks cover the rows. -/
theorem arr (V : (c : Dev nD) → (b : Ref sig .tc) → Buf (Elt Ideal) ((c : Thread nD τ).loc b)) (c : Dev nD) :
    (dat1 (F := Ideal) V c).arrAt 6 cfg1.N
      = Cert.Spec.gru (V c (Pipeline.arrRef spec1 0)) (V c (Pipeline.arrRef spec1 1)) (V c (Pipeline.arrRef spec1 2)) (V c (Pipeline.arrRef spec1 3))
          (fun j => V c (Pipeline.arrRef spec1 4) (ValueIdx.ix2 0 j)) (fun j => V c (Pipeline.arrRef spec1 5) (ValueIdx.ix2 0 j)) :=
  (dat1 (F := Ideal) V c).arrAt_eq_of_cover 6 _
    (fun t _ => (after1_6 V c t).trans ((out_pay k1_pay1 _ _ _ _ _ _).trans
      (tile_pay (pay := k1_pay1) isCell.1 _ _ _ _ _ _ (t.cast N_1) (tiles t) _ _ _ _ _ _ _)))
    fun i => let ⟨t, h⟩ := row_cover 5000 20 (by decide) (by decide) i
      ⟨t.cast N_1.symm, flush1_6 _, (congrArg (i ∈ ·) (View.set_slice_whole _ _)).mpr (h _ _ (tiles _).2.2.2.2.2.2)⟩

end Cert.KernelIdeal.KGru1
-- ==== Proof.KRound0.lean ====
import proofs.«400996_j66279935312387_2_alg».proof.Proof.KStep
import proofs.«400996_j66279935312387_2_alg».proof.Proof.KHost
import proofs.«400996_j66279935312387_2_alg».proof.Proof.KLin0
import proofs.«400996_j66279935312387_2_alg».proof.Proof.KGru1

noncomputable section

namespace Cert.KernelIdeal.KRound0

open Cert.KernelIdeal Cert.KernelIdeal.Gen Idealize.ShloMosaic Idealize.ShloMosaic.TcCoe Idealize.SL.Sem
open Idealize.ShloMosaic.ValueIdx KStep

variable (m : (ℓ : Loc nD τ sig) → Buf (Elt Ideal) ℓ) (ρ : Dev nD → PrngReg) (c : Dev nD)

theorem w1 : Writes hostOps0 [main_v0, main_v1, main_v2, main_v3, main_v4, main_v5, main_v6, main_v7] := by
  simp only [Writes, hostOps0, List.Forall, StableHlo.nullary_writes, StableHlo.unary_writes, StableHlo.binary_writes, StableHlo.ternary_writes, StableHlo.reshape_writes, sub_iff]
  decide

theorem w3 : Writes hostOps1 [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v9] := by
  simp only [Writes, hostOps1, List.Forall, StableHlo.nullary_writes, StableHlo.unary_writes, StableHlo.binary_writes, StableHlo.ternary_writes, StableHlo.reshape_writes, sub_iff]
  decide

theorem w4 : Writes hostOps1_1 [main_cst, main_v10, main_c, main_v11, main_v12, main_c_0, main_v13, main_v14, main_v15, main_v16, main_v17, main_v18, main_v19] := by
  simp only [Writes, hostOps1_1, List.Forall, StableHlo.nullary_writes, StableHlo.unary_writes, StableHlo.binary_writes, StableHlo.ternary_writes, StableHlo.reshape_writes, sub_iff]
  decide

/-- The node features and everything carried. -/
abbrev L : List (Ref sig .tc) := main_arg0 :: kept ++ late

theorem s1 : Same (main_arg0 :: main_arg3 :: main_arg6 :: main_arg7 :: late) (W0 m ρ c) (W1 m ρ c) := Same.ops _ w1 (by decide)
theorem s2 : Same L (W1 m ρ c) (W2 m ρ c) :=
  Same.region (fun w => (cfg0.win w).isOut) (W2_of_ne m ρ c) (W2_arr m ρ c)
    (fun w hw => (dat0 (V1 m ρ) c).arrAt_in w hw _) (A_eq0 (V1 m ρ) c) (by decide)
theorem s3 : Same L (W2 m ρ c) (W3 m ρ c) := Same.ops _ w3 (by decide)
theorem s4 : Same L (W3 m ρ c) (W4 m ρ c) := Same.ops _ w4 (by decide)
theorem s5 : Same L (W4 m ρ c) (W5 m ρ c) :=
  Same.region (fun w => (cfg1.win w).isOut) (W5_of_ne m ρ c) (W5_arr m ρ c)
    (fun w hw => (dat1 (V4 m ρ) c).arrAt_in w hw _) (A_eq1 (V4 m ρ) c) (by decide)

theorem s : Same L (W1 m ρ c) (W5 m ρ c) := (s2 m ρ c).trans ((s3 m ρ c).trans ((s4 m ρ c).trans (s5 m ρ c)))

theorem args0 : KInv.Args m c (W0 m ρ c) := ⟨rfl, rfl, rfl, rfl, rfl, rfl, rfl, rfl, rfl⟩

theorem args (I : KInv.Args m c (W0 m ρ c)) : KInv.Args m c (W5 m ρ c) := Args.same m c (s m ρ c) (Args.same m c (s1 m ρ c) I)

/-- The first operations lay the edge rows and the transposed weights and touch none of the other three. -/
theorem inv1 : KInv.Inv m c (W1 m ρ c) :=
  ⟨KHost.v1_eq _, KHost.v3_eq _, KHost.v4_eq _, KHost.v5_eq _, s1 m ρ c main_arg3 (by decide), s1 m ρ c main_arg6 (by decide),
    s1 m ρ c main_arg7 (by decide)⟩

theorem inv : KInv.Inv m c (W5 m ρ c) := Inv.same m c (s m ρ c) (inv1 m ρ c)

/-- The node states after the first round. -/
abbrev H1 : Cert.Spec.Mat 100000 43 :=
  Cert.Spec.layer (m ((c : Thread nD τ).loc main_arg0)) (Cert.Spec.member (m ((c : Thread nD τ).loc main_arg3)) 0) (Cert.Spec.row (m ((c : Thread nD τ).loc main_arg1)) 0) (Cert.Spec.row (m ((c : Thread nD τ).loc main_arg1)) 1)
          (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7)))

theorem s5_v20 (hs : ∀ n : Fin 1600000, 0 ≤ ((m ((c : Thread nD τ).loc main_arg1)) (ix2 0 n)).toInt ∧ ((m ((c : Thread nD τ).loc main_arg1)) (ix2 0 n)).toInt < 100000) : W5 m ρ c (Proc.devRef .tc main_v20) = H1 m c :=
  round m c hs (Inv.same m c (s2 m ρ c) (inv1 m ρ c)) (s3 m ρ c) (s4 m ρ c)
    ((W2_arr m ρ c 2).trans ((KLin0.arr (V1 m ρ) c).trans (congrArg₂ Cert.Spec.lin (s1 m ρ c main_arg0 (by decide)) (KHost.v7_eq (W0 m ρ c)))))
    (KHost.v9_eq (W2 m ρ c)) (KHost.v17_eq (W3 m ρ c)) (KHost.v18_apply (W3 m ρ c)) (KHost.v19_apply (W3 m ρ c))
    (((s2 m ρ c).trans ((s3 m ρ c).trans (s4 m ρ c)) main_arg0 (by decide)).trans (s1 m ρ c main_arg0 (by decide)))
    ((W5_arr m ρ c 6).trans (KGru1.arr (V4 m ρ) c))

end Cert.KernelIdeal.KRound0

end
-- ==== Proof.KLin2.lean ====
import proofs.«400996_j66279935312387_2_alg».proof.Proof.KLinCell

namespace Cert.KernelIdeal.KLin2

open Idealize.ShloMosaic Idealize.ShloMosaic.TcCoe Cert.KernelIdeal Cert.KernelIdeal.Gen Cert.KernelIdeal.KLin Cert.KBlock

theorem tiles : ∀ t : Fin cfg2.N, win2_0.index t = ![t.val, 0] ∧ win2_1.index t = 0 ∧ win2_2.index t = ![t.val, 0] :=
  (by decide +kernel : ∀ t : Fin grid2.N, _)

variable (V : (c : Dev nD) → (b : Ref sig .tc) → Buf (Elt Ideal) ((c : Thread nD τ).loc b))

/-- Each point writes its row block of the product of the arrays the region finds, and the 20 row blocks cover the rows. -/
theorem arr (c : Dev nD) :
    (dat2 (F := Ideal) V c).arrAt 2 cfg2.N
      = Cert.Spec.lin (V c (Pipeline.arrRef spec2 0)) (V c (Pipeline.arrRef spec2 1)) :=
  (dat2 (F := Ideal) V c).arrAt_eq_of_cover 2 _
    (fun t _ => (after2_2 V c t).trans ((out_lin k2_pay1 _ _).trans
      (tile_lin (pay := k2_pay1) pay_entry.2 _ _ (t.cast N_2) (tiles t) _ _ _)))
    fun i => let ⟨t, h⟩ := row_cover 5000 20 (by decide) (by decide) i
      ⟨t.cast N_2.symm, flush2_2 _, (congrArg (i ∈ ·) (View.set_slice_whole _ _)).mpr (h _ _ (tiles _).2.2)⟩

end Cert.KernelIdeal.KLin2
-- ==== Proof.KGru3.lean ====
import proofs.«400996_j66279935312387_2_alg».proof.Proof.KGruCell

namespace Cert.KernelIdeal.KGru3

open Idealize.ShloMosaic Idealize.ShloMosaic.TcCoe Cert.KernelIdeal Cert.KernelIdeal.Gen Cert.KernelIdeal.KGruCell Cert.KBlock

theorem tiles : ∀ t : Fin cfg3.N, win3_0.index t = ![t.val, 0] ∧ win3_1.index t = ![t.val, 0] ∧ win3_2.index t = 0
    ∧ win3_3.index t = 0 ∧ win3_4.index t = 0 ∧ win3_5.index t = 0 ∧ win3_6.index t = ![t.val, 0] :=
  (by decide +kernel : ∀ t : Fin grid3.N, _)

/-- Each point writes its row block of the GRU update of the arrays the region finds, and the 20 row blocks cover the rows. -/
theorem arr (V : (c : Dev nD) → (b : Ref sig .tc) → Buf (Elt Ideal) ((c : Thread nD τ).loc b)) (c : Dev nD) :
    (dat3 (F := Ideal) V c).arrAt 6 cfg3.N
      = Cert.Spec.gru (V c (Pipeline.arrRef spec3 0)) (V c (Pipeline.arrRef spec3 1)) (V c (Pipeline.arrRef spec3 2)) (V c (Pipeline.arrRef spec3 3))
          (fun j => V c (Pipeline.arrRef spec3 4) (ValueIdx.ix2 0 j)) (fun j => V c (Pipeline.arrRef spec3 5) (ValueIdx.ix2 0 j)) :=
  (dat3 (F := Ideal) V c).arrAt_eq_of_cover 6 _
    (fun t _ => (after3_6 V c t).trans ((out_pay k3_pay1 _ _ _ _ _ _).trans
      (tile_pay (pay := k3_pay1) isCell.2 _ _ _ _ _ _ (t.cast N_3) (tiles t) _ _ _ _ _ _ _)))
    fun i => let ⟨t, h⟩ := row_cover 5000 20 (by decide) (by decide) i
      ⟨t.cast N_3.symm, flush3_6 _, (congrArg (i ∈ ·) (View.set_slice_whole _ _)).mpr (h _ _ (tiles _).2.2.2.2.2.2)⟩

end Cert.KernelIdeal.KGru3
-- ==== Proof.KRound1.lean ====
import proofs.«400996_j66279935312387_2_alg».proof.Proof.KStep
import proofs.«400996_j66279935312387_2_alg».proof.Proof.KHost
import proofs.«400996_j66279935312387_2_alg».proof.Proof.KLin2
import proofs.«400996_j66279935312387_2_alg».proof.Proof.KGru3

noncomputable section

namespace Cert.KernelIdeal.KRound1

open Cert.KernelIdeal Cert.KernelIdeal.Gen Idealize.ShloMosaic Idealize.ShloMosaic.TcCoe Idealize.SL.Sem
open Idealize.ShloMosaic.ValueIdx KStep

variable (m : (ℓ : Loc nD τ sig) → Buf (Elt Ideal) ℓ) (ρ : Dev nD → PrngReg) (c : Dev nD)

theorem w1 : Writes hostOps2 [main_v21, main_v22] := by
  simp only [Writes, hostOps2, List.Forall, StableHlo.nullary_writes, StableHlo.unary_writes, StableHlo.binary_writes, StableHlo.ternary_writes, StableHlo.reshape_writes, sub_iff]
  decide

theorem w3 : Writes hostOps3 [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v24] := by
  simp only [Writes, hostOps3, List.Forall, StableHlo.nullary_writes, StableHlo.unary_writes, StableHlo.binary_writes, StableHlo.ternary_writes, StableHlo.reshape_writes, sub_iff]
  decide

theorem w4 : Writes hostOps3_1 [main_cst_1, main_v25, main_c_2, main_v26, main_v27, main_c_3, main_v28, main_v29, main_v30, main_v31, main_v32, main_v33, main_v34] := by
  simp only [Writes, hostOps3_1, List.Forall, StableHlo.nullary_writes, StableHlo.unary_writes, StableHlo.binary_writes, StableHlo.ternary_writes, StableHlo.reshape_writes, sub_iff]
  decide

/-- The round's node states and everything carried. -/
abbrev L : List (Ref sig .tc) := main_v20 :: kept ++ late

theorem s1 : Same L (W5 m ρ c) (W6 m ρ c) := Same.ops _ w1 (by decide)
theorem s2 : Same L (W6 m ρ c) (W7 m ρ c) :=
  Same.region (fun w => (cfg2.win w).isOut) (W7_of_ne m ρ c) (W7_arr m ρ c)
    (fun w hw => (dat2 (V6 m ρ) c).arrAt_in w hw _) (A_eq2 (V6 m ρ) c) (by decide)
theorem s3 : Same L (W7 m ρ c) (W8 m ρ c) := Same.ops _ w3 (by decide)
theorem s4 : Same L (W8 m ρ c) (W9 m ρ c) := Same.ops _ w4 (by decide)
theorem s5 : Same L (W9 m ρ c) (W10 m ρ c) :=
  Same.region (fun w => (cfg3.win w).isOut) (W10_of_ne m ρ c) (W10_arr m ρ c)
    (fun w hw => (dat3 (V9 m ρ) c).arrAt_in w hw _) (A_eq3 (V9 m ρ) c) (by decide)

theorem s : Same L (W5 m ρ c) (W10 m ρ c) :=
  (s1 m ρ c).trans ((s2 m ρ c).trans ((s3 m ρ c).trans ((s4 m ρ c).trans (s5 m ρ c))))

theorem args (I : KInv.Args m c (W5 m ρ c)) : KInv.Args m c (W10 m ρ c) := Args.same m c (s m ρ c) I

theorem inv (I : KInv.Inv m c (W5 m ρ c)) : KInv.Inv m c (W10 m ρ c) := Inv.same m c (s m ρ c) I

variable (H : Cert.Spec.Mat 100000 43)

theorem hout (hs : ∀ n : Fin 1600000, 0 ≤ ((m ((c : Thread nD τ).loc main_arg1)) (ix2 0 n)).toInt ∧ ((m ((c : Thread nD τ).loc main_arg1)) (ix2 0 n)).toInt < 100000) (I : KInv.Inv m c (W5 m ρ c)) (hin : W5 m ρ c (Proc.devRef .tc main_v20) = H) :
    W10 m ρ c (Proc.devRef .tc main_v35)
      = Cert.Spec.layer H (Cert.Spec.member (m ((c : Thread nD τ).loc main_arg3)) 1) (Cert.Spec.row (m ((c : Thread nD τ).loc main_arg1)) 0) (Cert.Spec.row (m ((c : Thread nD τ).loc main_arg1)) 1)
          (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7))) :=
  round m c hs (Inv.same m c ((s1 m ρ c).trans (s2 m ρ c)) I) (s3 m ρ c) (s4 m ρ c)
    ((W7_arr m ρ c 2).trans ((KLin2.arr (V6 m ρ) c).trans (congrArg₂ Cert.Spec.lin ((s1 m ρ c main_v20 (by decide)).trans hin)
      ((KHost.v22_eq (W5 m ρ c)).trans (congrArg (Cert.Spec.member · 1) I.arg3)))))
    (KHost.v24_eq (W7 m ρ c)) (KHost.v32_eq (W8 m ρ c)) (KHost.v33_apply (W8 m ρ c)) (KHost.v34_apply (W8 m ρ c))
    (((s1 m ρ c).trans ((s2 m ρ c).trans ((s3 m ρ c).trans (s4 m ρ c))) main_v20 (by decide)).trans hin)
    ((W10_arr m ρ c 6).trans (KGru3.arr (V9 m ρ) c))

end Cert.KernelIdeal.KRound1

end
-- ==== Proof.KLin4.lean ====
import proofs.«400996_j66279935312387_2_alg».proof.Proof.KLinCell

namespace Cert.KernelIdeal.KLin4

open Idealize.ShloMosaic Idealize.ShloMosaic.TcCoe Cert.KernelIdeal Cert.KernelIdeal.Gen Cert.KernelIdeal.KLin Cert.KBlock

theorem tiles : ∀ t : Fin cfg4.N, win4_0.index t = ![t.val, 0] ∧ win4_1.index t = 0 ∧ win4_2.index t = ![t.val, 0] :=
  (by decide +kernel : ∀ t : Fin grid4.N, _)

variable (V : (c : Dev nD) → (b : Ref sig .tc) → Buf (Elt Ideal) ((c : Thread nD τ).loc b))

/-- Each point writes its row block of the product of the arrays the region finds, and the 20 row blocks cover the rows. -/
theorem arr (c : Dev nD) :
    (dat4 (F := Ideal) V c).arrAt 2 cfg4.N
      = Cert.Spec.lin (V c (Pipeline.arrRef spec4 0)) (V c (Pipeline.arrRef spec4 1)) :=
  (dat4 (F := Ideal) V c).arrAt_eq_of_cover 2 _
    (fun t _ => (after4_2 V c t).trans ((out_lin k4_pay1 _ _).trans
      (tile_lin (pay := k4_pay1) pay_entry.2 _ _ (t.cast N_4) (tiles t) _ _ _)))
    fun i => let ⟨t, h⟩ := row_cover 5000 20 (by decide) (by decide) i
      ⟨t.cast N_4.symm, flush4_2 _, (congrArg (i ∈ ·) (View.set_slice_whole _ _)).mpr (h _ _ (tiles _).2.2)⟩

end Cert.KernelIdeal.KLin4
-- ==== Proof.KGru5.lean ====
import proofs.«400996_j66279935312387_2_alg».proof.Proof.KGruCell

namespace Cert.KernelIdeal.KGru5

open Idealize.ShloMosaic Idealize.ShloMosaic.TcCoe Cert.KernelIdeal Cert.KernelIdeal.Gen Cert.KernelIdeal.KGruCell Cert.KBlock

theorem tiles : ∀ t : Fin cfg5.N, win5_0.index t = ![t.val, 0] ∧ win5_1.index t = ![t.val, 0] ∧ win5_2.index t = 0
    ∧ win5_3.index t = 0 ∧ win5_4.index t = 0 ∧ win5_5.index t = 0 ∧ win5_6.index t = ![t.val, 0] :=
  (by decide +kernel : ∀ t : Fin grid5.N, _)

/-- Each point writes its row block of the GRU update of the arrays the region finds, and the 20 row blocks cover the rows. -/
theorem arr (V : (c : Dev nD) → (b : Ref sig .tc) → Buf (Elt Ideal) ((c : Thread nD τ).loc b)) (c : Dev nD) :
    (dat5 (F := Ideal) V c).arrAt 6 cfg5.N
      = Cert.Spec.gru (V c (Pipeline.arrRef spec5 0)) (V c (Pipeline.arrRef spec5 1)) (V c (Pipeline.arrRef spec5 2)) (V c (Pipeline.arrRef spec5 3))
          (fun j => V c (Pipeline.arrRef spec5 4) (ValueIdx.ix2 0 j)) (fun j => V c (Pipeline.arrRef spec5 5) (ValueIdx.ix2 0 j)) :=
  (dat5 (F := Ideal) V c).arrAt_eq_of_cover 6 _
    (fun t _ => (after5_6 V c t).trans ((out_pay k5_pay1 _ _ _ _ _ _).trans
      (tile_pay (pay := k5_pay1) isCell.2 _ _ _ _ _ _ (t.cast N_5) (tiles t) _ _ _ _ _ _ _)))
    fun i => let ⟨t, h⟩ := row_cover 5000 20 (by decide) (by decide) i
      ⟨t.cast N_5.symm, flush5_6 _, (congrArg (i ∈ ·) (View.set_slice_whole _ _)).mpr (h _ _ (tiles _).2.2.2.2.2.2)⟩

end Cert.KernelIdeal.KGru5
-- ==== Proof.KRound2.lean ====
import proofs.«400996_j66279935312387_2_alg».proof.Proof.KStep
import proofs.«400996_j66279935312387_2_alg».proof.Proof.KHost
import proofs.«400996_j66279935312387_2_alg».proof.Proof.KLin4
import proofs.«400996_j66279935312387_2_alg».proof.Proof.KGru5

noncomputable section

namespace Cert.KernelIdeal.KRound2

open Cert.KernelIdeal Cert.KernelIdeal.Gen Idealize.ShloMosaic Idealize.ShloMosaic.TcCoe Idealize.SL.Sem
open Idealize.ShloMosaic.ValueIdx KStep

variable (m : (ℓ : Loc nD τ sig) → Buf (Elt Ideal) ℓ) (ρ : Dev nD → PrngReg) (c : Dev nD)

theorem w1 : Writes hostOps4 [main_v36, main_v37] := by
  simp only [Writes, hostOps4, List.Forall, StableHlo.nullary_writes, StableHlo.unary_writes, StableHlo.binary_writes, StableHlo.ternary_writes, StableHlo.reshape_writes, sub_iff]
  decide

theorem w3 : Writes hostOps5 [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v39] := by
  simp only [Writes, hostOps5, List.Forall, StableHlo.nullary_writes, StableHlo.unary_writes, StableHlo.binary_writes, StableHlo.ternary_writes, StableHlo.reshape_writes, sub_iff]
  decide

theorem w4 : Writes hostOps5_1 [main_cst_4, main_v40, main_c_5, main_v41, main_v42, main_c_6, main_v43, main_v44, main_v45, main_v46, main_v47, main_v48, main_v49] := by
  simp only [Writes, hostOps5_1, List.Forall, StableHlo.nullary_writes, StableHlo.unary_writes, StableHlo.binary_writes, StableHlo.ternary_writes, StableHlo.reshape_writes, sub_iff]
  decide

/-- The round's node states and everything carried. -/
abbrev L : List (Ref sig .tc) := main_v35 :: kept ++ late

theorem s1 : Same L (W10 m ρ c) (W11 m ρ c) := Same.ops _ w1 (by decide)
theorem s2 : Same L (W11 m ρ c) (W12 m ρ c) :=
  Same.region (fun w => (cfg4.win w).isOut) (W12_of_ne m ρ c) (W12_arr m ρ c)
    (fun w hw => (dat4 (V11 m ρ) c).arrAt_in w hw _) (A_eq4 (V11 m ρ) c) (by decide)
theorem s3 : Same L (W12 m ρ c) (W13 m ρ c) := Same.ops _ w3 (by decide)
theorem s4 : Same L (W13 m ρ c) (W14 m ρ c) := Same.ops _ w4 (by decide)
theorem s5 : Same L (W14 m ρ c) (W15 m ρ c) :=
  Same.region (fun w => (cfg5.win w).isOut) (W15_of_ne m ρ c) (W15_arr m ρ c)
    (fun w hw => (dat5 (V14 m ρ) c).arrAt_in w hw _) (A_eq5 (V14 m ρ) c) (by decide)

theorem s : Same L (W10 m ρ c) (W15 m ρ c) :=
  (s1 m ρ c).trans ((s2 m ρ c).trans ((s3 m ρ c).trans ((s4 m ρ c).trans (s5 m ρ c))))

theorem args (I : KInv.Args m c (W10 m ρ c)) : KInv.Args m c (W15 m ρ c) := Args.same m c (s m ρ c) I

theorem inv (I : KInv.Inv m c (W10 m ρ c)) : KInv.Inv m c (W15 m ρ c) := Inv.same m c (s m ρ c) I

variable (H : Cert.Spec.Mat 100000 43)

theorem hout (hs : ∀ n : Fin 1600000, 0 ≤ ((m ((c : Thread nD τ).loc main_arg1)) (ix2 0 n)).toInt ∧ ((m ((c : Thread nD τ).loc main_arg1)) (ix2 0 n)).toInt < 100000) (I : KInv.Inv m c (W10 m ρ c)) (hin : W10 m ρ c (Proc.devRef .tc main_v35) = H) :
    W15 m ρ c (Proc.devRef .tc main_v50)
      = Cert.Spec.layer H (Cert.Spec.member (m ((c : Thread nD τ).loc main_arg3)) 2) (Cert.Spec.row (m ((c : Thread nD τ).loc main_arg1)) 0) (Cert.Spec.row (m ((c : Thread nD τ).loc main_arg1)) 1)
          (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7))) :=
  round m c hs (Inv.same m c ((s1 m ρ c).trans (s2 m ρ c)) I) (s3 m ρ c) (s4 m ρ c)
    ((W12_arr m ρ c 2).trans ((KLin4.arr (V11 m ρ) c).trans (congrArg₂ Cert.Spec.lin ((s1 m ρ c main_v35 (by decide)).trans hin)
      ((KHost.v37_eq (W10 m ρ c)).trans (congrArg (Cert.Spec.member · 2) I.arg3)))))
    (KHost.v39_eq (W12 m ρ c)) (KHost.v47_eq (W13 m ρ c)) (KHost.v48_apply (W13 m ρ c)) (KHost.v49_apply (W13 m ρ c))
    (((s1 m ρ c).trans ((s2 m ρ c).trans ((s3 m ρ c).trans (s4 m ρ c))) main_v35 (by decide)).trans hin)
    ((W15_arr m ρ c 6).trans (KGru5.arr (V14 m ρ) c))

end Cert.KernelIdeal.KRound2

end
-- ==== Proof.KLin6.lean ====
import proofs.«400996_j66279935312387_2_alg».proof.Proof.KLinCell

namespace Cert.KernelIdeal.KLin6

open Idealize.ShloMosaic Idealize.ShloMosaic.TcCoe Cert.KernelIdeal Cert.KernelIdeal.Gen Cert.KernelIdeal.KLin Cert.KBlock

theorem tiles : ∀ t : Fin cfg6.N, win6_0.index t = ![t.val, 0] ∧ win6_1.index t = 0 ∧ win6_2.index t = ![t.val, 0] :=
  (by decide +kernel : ∀ t : Fin grid6.N, _)

variable (V : (c : Dev nD) → (b : Ref sig .tc) → Buf (Elt Ideal) ((c : Thread nD τ).loc b))

/-- Each point writes its row block of the product of the arrays the region finds, and the 20 row blocks cover the rows. -/
theorem arr (c : Dev nD) :
    (dat6 (F := Ideal) V c).arrAt 2 cfg6.N
      = Cert.Spec.lin (V c (Pipeline.arrRef spec6 0)) (V c (Pipeline.arrRef spec6 1)) :=
  (dat6 (F := Ideal) V c).arrAt_eq_of_cover 2 _
    (fun t _ => (after6_2 V c t).trans ((out_lin k6_pay1 _ _).trans
      (tile_lin (pay := k6_pay1) pay_entry.2 _ _ (t.cast N_6) (tiles t) _ _ _)))
    fun i => let ⟨t, h⟩ := row_cover 5000 20 (by decide) (by decide) i
      ⟨t.cast N_6.symm, flush6_2 _, (congrArg (i ∈ ·) (View.set_slice_whole _ _)).mpr (h _ _ (tiles _).2.2)⟩

end Cert.KernelIdeal.KLin6
-- ==== Proof.KGru7.lean ====
import proofs.«400996_j66279935312387_2_alg».proof.Proof.KGruCell

namespace Cert.KernelIdeal.KGru7

open Idealize.ShloMosaic Idealize.ShloMosaic.TcCoe Cert.KernelIdeal Cert.KernelIdeal.Gen Cert.KernelIdeal.KGruCell Cert.KBlock

theorem tiles : ∀ t : Fin cfg7.N, win7_0.index t = ![t.val, 0] ∧ win7_1.index t = ![t.val, 0] ∧ win7_2.index t = 0
    ∧ win7_3.index t = 0 ∧ win7_4.index t = 0 ∧ win7_5.index t = 0 ∧ win7_6.index t = ![t.val, 0] :=
  (by decide +kernel : ∀ t : Fin grid7.N, _)

/-- Each point writes its row block of the GRU update of the arrays the region finds, and the 20 row blocks cover the rows. -/
theorem arr (V : (c : Dev nD) → (b : Ref sig .tc) → Buf (Elt Ideal) ((c : Thread nD τ).loc b)) (c : Dev nD) :
    (dat7 (F := Ideal) V c).arrAt 6 cfg7.N
      = Cert.Spec.gru (V c (Pipeline.arrRef spec7 0)) (V c (Pipeline.arrRef spec7 1)) (V c (Pipeline.arrRef spec7 2)) (V c (Pipeline.arrRef spec7 3))
          (fun j => V c (Pipeline.arrRef spec7 4) (ValueIdx.ix2 0 j)) (fun j => V c (Pipeline.arrRef spec7 5) (ValueIdx.ix2 0 j)) :=
  (dat7 (F := Ideal) V c).arrAt_eq_of_cover 6 _
    (fun t _ => (after7_6 V c t).trans ((out_pay k7_pay1 _ _ _ _ _ _).trans
      (tile_pay (pay := k7_pay1) isCell.2 _ _ _ _ _ _ (t.cast N_7) (tiles t) _ _ _ _ _ _ _)))
    fun i => let ⟨t, h⟩ := row_cover 5000 20 (by decide) (by decide) i
      ⟨t.cast N_7.symm, flush7_6 _, (congrArg (i ∈ ·) (View.set_slice_whole _ _)).mpr (h _ _ (tiles _).2.2.2.2.2.2)⟩

end Cert.KernelIdeal.KGru7
-- ==== Proof.KRound3.lean ====
import proofs.«400996_j66279935312387_2_alg».proof.Proof.KStep
import proofs.«400996_j66279935312387_2_alg».proof.Proof.KHost
import proofs.«400996_j66279935312387_2_alg».proof.Proof.KLin6
import proofs.«400996_j66279935312387_2_alg».proof.Proof.KGru7

noncomputable section

namespace Cert.KernelIdeal.KRound3

open Cert.KernelIdeal Cert.KernelIdeal.Gen Idealize.ShloMosaic Idealize.ShloMosaic.TcCoe Idealize.SL.Sem
open Idealize.ShloMosaic.ValueIdx KStep

variable (m : (ℓ : Loc nD τ sig) → Buf (Elt Ideal) ℓ) (ρ : Dev nD → PrngReg) (c : Dev nD)

theorem w1 : Writes hostOps6 [main_v51, main_v52] := by
  simp only [Writes, hostOps6, List.Forall, StableHlo.nullary_writes, StableHlo.unary_writes, StableHlo.binary_writes, StableHlo.ternary_writes, StableHlo.reshape_writes, sub_iff]
  decide

theorem w3 : Writes hostOps7 [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v54] := by
  simp only [Writes, hostOps7, List.Forall, StableHlo.nullary_writes, StableHlo.unary_writes, StableHlo.binary_writes, StableHlo.ternary_writes, StableHlo.reshape_writes, sub_iff]
  decide

theorem w4 : Writes hostOps7_1 [main_cst_7, main_v55, main_c_8, main_v56, main_v57, main_c_9, main_v58, main_v59, main_v60, main_v61, main_v62, main_v63, main_v64] := by
  simp only [Writes, hostOps7_1, List.Forall, StableHlo.nullary_writes, StableHlo.unary_writes, StableHlo.binary_writes, StableHlo.ternary_writes, StableHlo.reshape_writes, sub_iff]
  decide

/-- The round's node states and everything carried. -/
abbrev L : List (Ref sig .tc) := main_v50 :: kept ++ late

theorem s1 : Same L (W15 m ρ c) (W16 m ρ c) := Same.ops _ w1 (by decide)
theorem s2 : Same L (W16 m ρ c) (W17 m ρ c) :=
  Same.region (fun w => (cfg6.win w).isOut) (W17_of_ne m ρ c) (W17_arr m ρ c)
    (fun w hw => (dat6 (V16 m ρ) c).arrAt_in w hw _) (A_eq6 (V16 m ρ) c) (by decide)
theorem s3 : Same L (W17 m ρ c) (W18 m ρ c) := Same.ops _ w3 (by decide)
theorem s4 : Same L (W18 m ρ c) (W19 m ρ c) := Same.ops _ w4 (by decide)
theorem s5 : Same L (W19 m ρ c) (W20 m ρ c) :=
  Same.region (fun w => (cfg7.win w).isOut) (W20_of_ne m ρ c) (W20_arr m ρ c)
    (fun w hw => (dat7 (V19 m ρ) c).arrAt_in w hw _) (A_eq7 (V19 m ρ) c) (by decide)

theorem s : Same L (W15 m ρ c) (W20 m ρ c) :=
  (s1 m ρ c).trans ((s2 m ρ c).trans ((s3 m ρ c).trans ((s4 m ρ c).trans (s5 m ρ c))))

theorem args (I : KInv.Args m c (W15 m ρ c)) : KInv.Args m c (W20 m ρ c) := Args.same m c (s m ρ c) I

theorem inv (I : KInv.Inv m c (W15 m ρ c)) : KInv.Inv m c (W20 m ρ c) := Inv.same m c (s m ρ c) I

variable (H : Cert.Spec.Mat 100000 43)

theorem hout (hs : ∀ n : Fin 1600000, 0 ≤ ((m ((c : Thread nD τ).loc main_arg1)) (ix2 0 n)).toInt ∧ ((m ((c : Thread nD τ).loc main_arg1)) (ix2 0 n)).toInt < 100000) (I : KInv.Inv m c (W15 m ρ c)) (hin : W15 m ρ c (Proc.devRef .tc main_v50) = H) :
    W20 m ρ c (Proc.devRef .tc main_v65)
      = Cert.Spec.layer H (Cert.Spec.member (m ((c : Thread nD τ).loc main_arg3)) 3) (Cert.Spec.row (m ((c : Thread nD τ).loc main_arg1)) 0) (Cert.Spec.row (m ((c : Thread nD τ).loc main_arg1)) 1)
          (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7))) :=
  round m c hs (Inv.same m c ((s1 m ρ c).trans (s2 m ρ c)) I) (s3 m ρ c) (s4 m ρ c)
    ((W17_arr m ρ c 2).trans ((KLin6.arr (V16 m ρ) c).trans (congrArg₂ Cert.Spec.lin ((s1 m ρ c main_v50 (by decide)).trans hin)
      ((KHost.v52_eq (W15 m ρ c)).trans (congrArg (Cert.Spec.member · 3) I.arg3)))))
    (KHost.v54_eq (W17 m ρ c)) (KHost.v62_eq (W18 m ρ c)) (KHost.v63_apply (W18 m ρ c)) (KHost.v64_apply (W18 m ρ c))
    (((s1 m ρ c).trans ((s2 m ρ c).trans ((s3 m ρ c).trans (s4 m ρ c))) main_v50 (by decide)).trans hin)
    ((W20_arr m ρ c 6).trans (KGru7.arr (V19 m ρ) c))

end Cert.KernelIdeal.KRound3

end
-- ==== Proof.KLin8.lean ====
import proofs.«400996_j66279935312387_2_alg».proof.Proof.KLinCell

namespace Cert.KernelIdeal.KLin8

open Idealize.ShloMosaic Idealize.ShloMosaic.TcCoe Cert.KernelIdeal Cert.KernelIdeal.Gen Cert.KernelIdeal.KLin Cert.KBlock

theorem tiles : ∀ t : Fin cfg8.N, win8_0.index t = ![t.val, 0] ∧ win8_1.index t = 0 ∧ win8_2.index t = ![t.val, 0] :=
  (by decide +kernel : ∀ t : Fin grid8.N, _)

variable (V : (c : Dev nD) → (b : Ref sig .tc) → Buf (Elt Ideal) ((c : Thread nD τ).loc b))

/-- Each point writes its row block of the product of the arrays the region finds, and the 20 row blocks cover the rows. -/
theorem arr (c : Dev nD) :
    (dat8 (F := Ideal) V c).arrAt 2 cfg8.N
      = Cert.Spec.lin (V c (Pipeline.arrRef spec8 0)) (V c (Pipeline.arrRef spec8 1)) :=
  (dat8 (F := Ideal) V c).arrAt_eq_of_cover 2 _
    (fun t _ => (after8_2 V c t).trans ((out_lin k8_pay1 _ _).trans
      (tile_lin (pay := k8_pay1) pay_entry.2 _ _ (t.cast N_8) (tiles t) _ _ _)))
    fun i => let ⟨t, h⟩ := row_cover 5000 20 (by decide) (by decide) i
      ⟨t.cast N_8.symm, flush8_2 _, (congrArg (i ∈ ·) (View.set_slice_whole _ _)).mpr (h _ _ (tiles _).2.2)⟩

end Cert.KernelIdeal.KLin8
-- ==== Proof.KGru9.lean ====
import proofs.«400996_j66279935312387_2_alg».proof.Proof.KGruCell

namespace Cert.KernelIdeal.KGru9

open Idealize.ShloMosaic Idealize.ShloMosaic.TcCoe Cert.KernelIdeal Cert.KernelIdeal.Gen Cert.KernelIdeal.KGruCell Cert.KBlock

theorem tiles : ∀ t : Fin cfg9.N, win9_0.index t = ![t.val, 0] ∧ win9_1.index t = ![t.val, 0] ∧ win9_2.index t = 0
    ∧ win9_3.index t = 0 ∧ win9_4.index t = 0 ∧ win9_5.index t = 0 ∧ win9_6.index t = ![t.val, 0] :=
  (by decide +kernel : ∀ t : Fin grid9.N, _)

/-- Each point writes its row block of the GRU update of the arrays the region finds, and the 20 row blocks cover the rows. -/
theorem arr (V : (c : Dev nD) → (b : Ref sig .tc) → Buf (Elt Ideal) ((c : Thread nD τ).loc b)) (c : Dev nD) :
    (dat9 (F := Ideal) V c).arrAt 6 cfg9.N
      = Cert.Spec.gru (V c (Pipeline.arrRef spec9 0)) (V c (Pipeline.arrRef spec9 1)) (V c (Pipeline.arrRef spec9 2)) (V c (Pipeline.arrRef spec9 3))
          (fun j => V c (Pipeline.arrRef spec9 4) (ValueIdx.ix2 0 j)) (fun j => V c (Pipeline.arrRef spec9 5) (ValueIdx.ix2 0 j)) :=
  (dat9 (F := Ideal) V c).arrAt_eq_of_cover 6 _
    (fun t _ => (after9_6 V c t).trans ((out_pay k9_pay1 _ _ _ _ _ _).trans
      (tile_pay (pay := k9_pay1) isCell.2 _ _ _ _ _ _ (t.cast N_9) (tiles t) _ _ _ _ _ _ _)))
    fun i => let ⟨t, h⟩ := row_cover 5000 20 (by decide) (by decide) i
      ⟨t.cast N_9.symm, flush9_6 _, (congrArg (i ∈ ·) (View.set_slice_whole _ _)).mpr (h _ _ (tiles _).2.2.2.2.2.2)⟩

end Cert.KernelIdeal.KGru9
-- ==== Proof.KRound4.lean ====
import proofs.«400996_j66279935312387_2_alg».proof.Proof.KStep
import proofs.«400996_j66279935312387_2_alg».proof.Proof.KHost
import proofs.«400996_j66279935312387_2_alg».proof.Proof.KLin8
import proofs.«400996_j66279935312387_2_alg».proof.Proof.KGru9

noncomputable section

namespace Cert.KernelIdeal.KRound4

open Cert.KernelIdeal Cert.KernelIdeal.Gen Idealize.ShloMosaic Idealize.ShloMosaic.TcCoe Idealize.SL.Sem
open Idealize.ShloMosaic.ValueIdx KStep

variable (m : (ℓ : Loc nD τ sig) → Buf (Elt Ideal) ℓ) (ρ : Dev nD → PrngReg) (c : Dev nD)

theorem w1 : Writes hostOps8 [main_v66, main_v67] := by
  simp only [Writes, hostOps8, List.Forall, StableHlo.nullary_writes, StableHlo.unary_writes, StableHlo.binary_writes, StableHlo.ternary_writes, StableHlo.reshape_writes, sub_iff]
  decide

theorem w3 : Writes hostOps9 [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v69] := by
  simp only [Writes, hostOps9, List.Forall, StableHlo.nullary_writes, StableHlo.unary_writes, StableHlo.binary_writes, StableHlo.ternary_writes, StableHlo.reshape_writes, sub_iff]
  decide

theorem w4 : Writes hostOps9_1 [main_cst_10, main_v70, main_c_11, main_v71, main_v72, main_c_12, main_v73, main_v74, main_v75, main_v76, main_v77, main_v78, main_v79] := by
  simp only [Writes, hostOps9_1, List.Forall, StableHlo.nullary_writes, StableHlo.unary_writes, StableHlo.binary_writes, StableHlo.ternary_writes, StableHlo.reshape_writes, sub_iff]
  decide

/-- The round's node states and everything carried. -/
abbrev L : List (Ref sig .tc) := main_v65 :: kept ++ late

theorem s1 : Same L (W20 m ρ c) (W21 m ρ c) := Same.ops _ w1 (by decide)
theorem s2 : Same L (W21 m ρ c) (W22 m ρ c) :=
  Same.region (fun w => (cfg8.win w).isOut) (W22_of_ne m ρ c) (W22_arr m ρ c)
    (fun w hw => (dat8 (V21 m ρ) c).arrAt_in w hw _) (A_eq8 (V21 m ρ) c) (by decide)
theorem s3 : Same L (W22 m ρ c) (W23 m ρ c) := Same.ops _ w3 (by decide)
theorem s4 : Same L (W23 m ρ c) (W24 m ρ c) := Same.ops _ w4 (by decide)
theorem s5 : Same L (W24 m ρ c) (W25 m ρ c) :=
  Same.region (fun w => (cfg9.win w).isOut) (W25_of_ne m ρ c) (W25_arr m ρ c)
    (fun w hw => (dat9 (V24 m ρ) c).arrAt_in w hw _) (A_eq9 (V24 m ρ) c) (by decide)

theorem s : Same L (W20 m ρ c) (W25 m ρ c) :=
  (s1 m ρ c).trans ((s2 m ρ c).trans ((s3 m ρ c).trans ((s4 m ρ c).trans (s5 m ρ c))))

theorem args (I : KInv.Args m c (W20 m ρ c)) : KInv.Args m c (W25 m ρ c) := Args.same m c (s m ρ c) I

theorem inv (I : KInv.Inv m c (W20 m ρ c)) : KInv.Inv m c (W25 m ρ c) := Inv.same m c (s m ρ c) I

variable (H : Cert.Spec.Mat 100000 43)

theorem hout (hs : ∀ n : Fin 1600000, 0 ≤ ((m ((c : Thread nD τ).loc main_arg1)) (ix2 0 n)).toInt ∧ ((m ((c : Thread nD τ).loc main_arg1)) (ix2 0 n)).toInt < 100000) (I : KInv.Inv m c (W20 m ρ c)) (hin : W20 m ρ c (Proc.devRef .tc main_v65) = H) :
    W25 m ρ c (Proc.devRef .tc main_v80)
      = Cert.Spec.layer H (Cert.Spec.member (m ((c : Thread nD τ).loc main_arg3)) 4) (Cert.Spec.row (m ((c : Thread nD τ).loc main_arg1)) 0) (Cert.Spec.row (m ((c : Thread nD τ).loc main_arg1)) 1)
          (Cert.Spec.tr (m ((c : Thread nD τ).loc main_arg4))) (Cert.Spec.tr (m ((c : Thread nD τ).loc main_arg5))) (Cert.Spec.vec (m ((c : Thread nD τ).loc main_arg6))) (Cert.Spec.vec (m ((c : Thread nD τ).loc main_arg7))) :=
  round m c hs (Inv.same m c ((s1 m ρ c).trans (s2 m ρ c)) I) (s3 m ρ c) (s4 m ρ c)
    ((W22_arr m ρ c 2).trans ((KLin8.arr (V21 m ρ) c).trans (congrArg₂ Cert.Spec.lin ((s1 m ρ c main_v65 (by decide)).trans hin)
      ((KHost.v67_eq (W20 m ρ c)).trans (congrArg (Cert.Spec.member · 4) I.arg3)))))
    (KHost.v69_eq (W22 m ρ c)) (KHost.v77_eq (W23 m ρ c)) (KHost.v78_apply (W23 m ρ c)) (KHost.v79_apply (W23 m ρ c))
    (((s1 m ρ c).trans ((s2 m ρ c).trans ((s3 m ρ c).trans (s4 m ρ c))) main_v65 (by decide)).trans hin)
    ((W25_arr m ρ c 6).trans (KGru9.arr (V24 m ρ) c))

end Cert.KernelIdeal.KRound4

end
-- ==== Proof.KMlpTile.lean ====
import proofs.«400996_j66279935312387_2_alg».proof.Proof.Gen.KernelIdeal.Frame
import proofs.«400996_j66279935312387_2_alg».proof.Proof.Spec
import proofs.«400996_j66279935312387_2_alg».proof.Proof.KDense
import Idealize.ShloMosaic.Lib.Pipeline.Value

noncomputable section

namespace Cert.KernelIdeal.KMlp10

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

section Rows
variable {P P' K C : Nat}

theorem dense_row (x : Cert.Spec.Mat P K) (x' : Cert.Spec.Mat P' K) (w : Cert.Spec.Mat K C) (b : Fin C → EReal) (p : Fin P)
    (r : Fin P') (h : ∀ k : Fin K, x (ix2 p k) = x' (ix2 r k)) (q : Fin C) :
    Cert.Spec.dense x w b (ix2 p q) = Cert.Spec.dense x' w b (ix2 r q) := by
  show (∑ k : Fin K, x (ix2 p k) * w (ix2 k q)) + b q = (∑ k : Fin K, x' (ix2 r k) * w (ix2 k q)) + b q
  exact congrArg (· + b q) (Finset.sum_congr rfl fun k _ => by rw [h k])

theorem relu_row (x : Cert.Spec.Mat P C) (x' : Cert.Spec.Mat P' C) (p : Fin P) (r : Fin P') (q : Fin C)
    (h : x (ix2 p q) = x' (ix2 r q)) : Cert.Spec.relu x (ix2 p q) = Cert.Spec.relu x' (ix2 r q) := by
  show max (x (ix2 p q)) Cert.Spec.zero = max (x' (ix2 r q)) Cert.Spec.zero
  rw [h]

/-- Row p of the perceptron's value depends on row p of its input alone. -/
theorem mlp_row (g : Cert.Spec.Mat P 43) (g' : Cert.Spec.Mat P' 43) (w1 : Cert.Spec.Mat 43 392) (b1 : Fin 392 → EReal)
    (w2 : Cert.Spec.Mat 392 392) (b2 : Fin 392 → EReal) (w3 : Cert.Spec.Mat 392 392) (b3 : Fin 392 → EReal)
    (wp : Cert.Spec.Mat 392 138) (bp : Fin 138 → EReal) (p : Fin P) (r : Fin P')
    (h : ∀ k : Fin 43, g (ix2 p k) = g' (ix2 r k)) (q : Fin 138) :
    Cert.Spec.mlp g w1 b1 w2 b2 w3 b3 wp bp (ix2 p q) = Cert.Spec.mlp g' w1 b1 w2 b2 w3 b3 wp bp (ix2 r q) := by
  show Ideal.logistic (Cert.Spec.dense _ wp bp (ix2 p q)) = Ideal.logistic (Cert.Spec.dense _ wp bp (ix2 r q))
  refine congrArg Ideal.logistic (dense_row _ _ wp bp p r (fun k3 => relu_row _ _ p r k3 ?_) q)
  refine dense_row _ _ w3 b3 p r (fun k2 => relu_row _ _ p r k2 ?_) k3
  refine dense_row _ _ w2 b2 p r (fun k1 => relu_row _ _ p r k1 ?_) k2
  exact dense_row g g' w1 b1 p r h k1

end Rows

theorem dims1 : dot_S512x43_S43x392_S512x392_1_0_0_1_n_n = DotDims.plain 512 43 392 := rfl
theorem dims2 : dot_S512x392_S392x392_S512x392_1_0_0_1_n_n = DotDims.plain 512 392 392 := rfl
theorem dims3 : dot_S512x392_S392x138_S512x138_1_0_0_1_n_n = DotDims.plain 512 392 138 := rfl

theorem hidden_eq (x : Vec Ideal S512x43 .f32) (w1 : Vec Ideal S43x392 .f32) (b1 : Vec Ideal S1x392 .f32)
    (w2 : Vec Ideal S392x392 .f32) (b2 : Vec Ideal S1x392 .f32) (w3 : Vec Ideal S392x392 .f32) (b3 : Vec Ideal S1x392 .f32) :
    k10_pay2 (F := Ideal) x w1 b1 w2 b2 w3 b3
      = Cert.Spec.relu (Cert.Spec.dense (Cert.Spec.relu (Cert.Spec.dense (Cert.Spec.relu
          (Cert.Spec.dense x w1 (fun j => b1 (ix2 (0 : Fin 1) j)))) w2 (fun j => b2 (ix2 (0 : Fin 1) j)))) w3
          (fun j => b3 (ix2 (0 : Fin 1) j))) := by
  unfold k10_pay2
  simp only [shapeCast_self, Cert.KDense.dense_eq _ dims1, Cert.KDense.dense_eq _ dims2, Cert.KDense.relu_eq]

theorem head_eq (h : FVec Ideal S512x392 .f32) (wp : FVec Ideal S392x138 .f32) (bp : Vec Ideal S1x138 .f32) :
    k10_pay1 (F := Ideal) h wp bp = fun i => Ideal.logistic (Cert.Spec.dense h wp (fun j => bp (ix2 (0 : Fin 1) j)) i) := by
  unfold k10_pay1
  simp only [shapeCast_self, Cert.KDense.dense_eq _ dims3]
  rfl

theorem weights_eq (wp : Vec Ideal S392x138 .f32) : k10_pay3 (F := Ideal) wp = wp := by
  unfold k10_pay3
  rw [shapeCast_self]

theorem zero_offsets : (![0, 0] : Fin 2 → Nat) = fun _ => 0 := funext fun a => by fin_cases a <;> rfl

/-- What one point stores is the perceptron of its tile of 512 rows. -/
theorem tile_eq (x : Vec Ideal S512x43 .f32) (w1 : Vec Ideal S43x392 .f32) (b1 : Vec Ideal S1x392 .f32)
    (w2 : Vec Ideal S392x392 .f32) (b2 : Vec Ideal S1x392 .f32) (w3 : Vec Ideal S392x392 .f32) (b3 : Vec Ideal S1x392 .f32)
    (wp : Vec Ideal S392x138 .f32) (bp : Vec Ideal S1x138 .f32) :
    out10_9 (F := Ideal) x w1 b1 w2 b2 w3 b3 wp bp
      = Cert.Spec.mlp x w1 (fun j => b1 (ix2 (0 : Fin 1) j)) w2 (fun j => b2 (ix2 (0 : Fin 1) j)) w3
          (fun j => b3 (ix2 (0 : Fin 1) j)) wp (fun j => bp (ix2 (0 : Fin 1) j)) := by
  unfold out10_9
  rw [View.canon_unit_zero zero_offsets]
  simp only [View.ld_unit_zero (S := S512x43) zero_offsets, View.ld_unit_zero (S := S43x392) zero_offsets,
    View.ld_unit_zero (S := S1x392) zero_offsets, View.ld_unit_zero (S := S392x392) zero_offsets,
    View.ld_unit_zero (S := S392x138) zero_offsets, View.ld_unit_zero (S := S1x138) zero_offsets]
  rw [weights_eq, hidden_eq, head_eq]
  rfl

end Cert.KernelIdeal.KMlp10

end
-- ==== Proof.KMlpBlocks.lean ====
import proofs.«400996_j66279935312387_2_alg».proof.Proof.Gen.KernelIdeal.Frame
import proofs.«400996_j66279935312387_2_alg».proof.Proof.Spec
import proofs.«400996_j66279935312387_2_alg».proof.Proof.KBlock

namespace Cert.KernelIdeal.KMlp10

open Idealize.ShloMosaic Idealize.ShloMosaic.ValueIdx Idealize.ShloMosaic.TcCoe
open Cert.KernelIdeal Cert.KernelIdeal.Gen Cert.KBlock

variable (V : (c : Dev nD) → (b : Ref sig .tc) → Buf (Elt Ideal) ((c : Thread nD τ).loc b))

abbrev gArr (c : Dev nD) : Cert.Spec.Mat 2048 43 := V c (Pipeline.arrRef spec10 0)

abbrev w1Arr (c : Dev nD) : Cert.Spec.Mat 43 392 := V c (Pipeline.arrRef spec10 1)

abbrev b1Arr (c : Dev nD) : Cert.Spec.Mat 1 392 := V c (Pipeline.arrRef spec10 2)

abbrev w2Arr (c : Dev nD) : Cert.Spec.Mat 392 392 := V c (Pipeline.arrRef spec10 3)

abbrev b2Arr (c : Dev nD) : Cert.Spec.Mat 1 392 := V c (Pipeline.arrRef spec10 4)

abbrev w3Arr (c : Dev nD) : Cert.Spec.Mat 392 392 := V c (Pipeline.arrRef spec10 5)

abbrev b3Arr (c : Dev nD) : Cert.Spec.Mat 1 392 := V c (Pipeline.arrRef spec10 6)

abbrev wpArr (c : Dev nD) : Cert.Spec.Mat 392 138 := V c (Pipeline.arrRef spec10 7)

abbrev bpArr (c : Dev nD) : Cert.Spec.Mat 1 138 := V c (Pipeline.arrRef spec10 8)

noncomputable abbrev gTile (c : Dev nD) (t : Fin cfg10.N) : Vec Ideal S512x43 .f32 := iblk10 V c 0 t

theorem tiles : ∀ t : Fin cfg10.N, win10_0.index t = ![t.val, 0] ∧ win10_1.index t = 0 ∧ win10_2.index t = 0
    ∧ win10_3.index t = 0 ∧ win10_4.index t = 0 ∧ win10_5.index t = 0 ∧ win10_6.index t = 0 ∧ win10_7.index t = 0
    ∧ win10_8.index t = 0 ∧ win10_9.index t = ![t.val, 0] :=
  (by decide +kernel : ∀ t : Fin grid10.N, _)

theorem w1_block (c : Dev nD) (t : Fin cfg10.N) : (iblk10 V c 1 t : Vec Ideal S43x392 .f32) = w1Arr V c :=
  block_zero _ (tiles t).2.1 _

theorem b1_block (c : Dev nD) (t : Fin cfg10.N) : (iblk10 V c 2 t : Vec Ideal S1x392 .f32) = b1Arr V c :=
  block_zero _ (tiles t).2.2.1 _

theorem w2_block (c : Dev nD) (t : Fin cfg10.N) : (iblk10 V c 3 t : Vec Ideal S392x392 .f32) = w2Arr V c :=
  block_zero _ (tiles t).2.2.2.1 _

theorem b2_block (c : Dev nD) (t : Fin cfg10.N) : (iblk10 V c 4 t : Vec Ideal S1x392 .f32) = b2Arr V c :=
  block_zero _ (tiles t).2.2.2.2.1 _

theorem w3_block (c : Dev nD) (t : Fin cfg10.N) : (iblk10 V c 5 t : Vec Ideal S392x392 .f32) = w3Arr V c :=
  block_zero _ (tiles t).2.2.2.2.2.1 _

theorem b3_block (c : Dev nD) (t : Fin cfg10.N) : (iblk10 V c 6 t : Vec Ideal S1x392 .f32) = b3Arr V c :=
  block_zero _ (tiles t).2.2.2.2.2.2.1 _

theorem wp_block (c : Dev nD) (t : Fin cfg10.N) : (iblk10 V c 7 t : Vec Ideal S392x138 .f32) = wpArr V c :=
  block_zero _ (tiles t).2.2.2.2.2.2.2.1 _

theorem bp_block (c : Dev nD) (t : Fin cfg10.N) : (iblk10 V c 8 t : Vec Ideal S1x138 .f32) = bpArr V c :=
  block_zero _ (tiles t).2.2.2.2.2.2.2.2.1 _

end Cert.KernelIdeal.KMlp10
-- ==== Proof.KMlp10.lean ====
import proofs.«400996_j66279935312387_2_alg».proof.Proof.KMlpTile
import proofs.«400996_j66279935312387_2_alg».proof.Proof.KMlpBlocks

namespace Cert.KernelIdeal.KMlp10

open Idealize.ShloMosaic Idealize.ShloMosaic.ValueIdx Idealize.ShloMosaic.TcCoe
open Cert.KernelIdeal Cert.KernelIdeal.Gen Cert.KBlock

variable (V : (c : Dev nD) → (b : Ref sig .tc) → Buf (Elt Ideal) ((c : Thread nD τ).loc b))

noncomputable abbrev result (c : Dev nD) : Cert.Spec.Mat 2048 138 :=
  Cert.Spec.mlp (gArr V c) (w1Arr V c) (fun j => b1Arr V c (ix2 (0 : Fin 1) j)) (w2Arr V c)
    (fun j => b2Arr V c (ix2 (0 : Fin 1) j)) (w3Arr V c) (fun j => b3Arr V c (ix2 (0 : Fin 1) j)) (wpArr V c)
    (fun j => bpArr V c (ix2 (0 : Fin 1) j))

/-- Entry (p, q) of what point t writes is the perceptron at row 512 t + p: a row of the result reads that row of the features only. -/
theorem written_back (c : Dev nD) (t : Fin cfg10.N) :
    (dat10 (F := Ideal) V c).flushed 9 t = ((cfg10.win 9).blk t).view.read (Elt Ideal) (result V c) := by
  have ht : t.val < 4 := lt_of_lt_of_eq t.isLt N_10
  show (cfg10.win 9).cut (grid10.coords t) ((dat10 (F := Ideal) V c).after 9 t) = _
  rw [after10_9, w1_block V c t, b1_block V c t, w2_block V c t, b2_block V c t, w3_block V c t, b3_block V c t,
    wp_block V c t, bp_block V c t, tile_eq]
  refine ext2 fun p q => ?_
  have hr : t.val * 512 + p.val < 2048 := by omega
  exact (mlp_row (gTile V c t) (gArr V c) _ _ _ _ _ _ _ _ p ⟨_, hr⟩
    (fun k => block_row (gArr V c) (tiles t).1 _ p k _ rfl) q).trans
    (block_row (result V c) (tiles t).2.2.2.2.2.2.2.2.2 _ p q _ rfl).symm

/-- Each point writes its row block of the perceptron of the arrays the region finds, and the 4 row blocks cover the rows. -/
theorem arr (c : Dev nD) :
    (dat10 (F := Ideal) V c).arrAt 9 cfg10.N
      = Cert.Spec.mlp (V c (Pipeline.arrRef spec10 0)) (V c (Pipeline.arrRef spec10 1)) (fun j => V c (Pipeline.arrRef spec10 2) (ValueIdx.ix2 0 j))
          (V c (Pipeline.arrRef spec10 3)) (fun j => V c (Pipeline.arrRef spec10 4) (ValueIdx.ix2 0 j)) (V c (Pipeline.arrRef spec10 5)) (fun j => V c (Pipeline.arrRef spec10 6) (ValueIdx.ix2 0 j))
          (V c (Pipeline.arrRef spec10 7)) (fun j => V c (Pipeline.arrRef spec10 8) (ValueIdx.ix2 0 j)) :=
  (dat10 (F := Ideal) V c).arrAt_eq_of_cover 9 (result V c) (fun t _ => written_back V c t)
    fun i => let ⟨t, h⟩ := row_cover 512 4 (by decide) (by decide) i
      ⟨t.cast N_10.symm, flush10_9 _, (congrArg (i ∈ ·) (View.set_slice_whole _ _)).mpr (h _ _ (tiles _).2.2.2.2.2.2.2.2.2)⟩

end Cert.KernelIdeal.KMlp10
-- ==== Proof.KTail.lean ====
import proofs.«400996_j66279935312387_2_alg».proof.Proof.Gen.KernelIdeal.Frame
import proofs.«400996_j66279935312387_2_alg».proof.Proof.Spec
import proofs.«400996_j66279935312387_2_alg».proof.Proof.KInv
import proofs.«400996_j66279935312387_2_alg».proof.Proof.KHost
import proofs.«400996_j66279935312387_2_alg».proof.Proof.KMlp10

noncomputable section

namespace Cert.KernelIdeal.KTail

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)
variable (H : Cert.Spec.Mat 100000 43)

theorem pooled (IA : KInv.Args m c (W25 m ρ c)) (hin : W25 m ρ c (Proc.devRef .tc main_v80) = H) :
    W26 m ρ c (Proc.devRef .tc main_v83) = Cert.Spec.scat (m ((c : Thread nD τ).loc main_arg2)) H := by
  refine (KHost.v83_eq (W25 m ρ c)).trans ?_
  rw [IA.arg2, hin]

theorem w1 (IA : KInv.Args m c (W25 m ρ c)) : W26 m ρ c (Proc.devRef .tc main_v84) = Cert.Spec.tr (m ((c : Thread nD τ).loc main_arg8)) := by
  refine (KHost.v84_eq (W25 m ρ c)).trans ?_
  rw [IA.arg8]
theorem w2 (IA : KInv.Args m c (W25 m ρ c)) : W26 m ρ c (Proc.devRef .tc main_v85) = Cert.Spec.tr (m ((c : Thread nD τ).loc main_arg10)) := by
  refine (KHost.v85_eq (W25 m ρ c)).trans ?_
  rw [IA.arg10]
theorem w3 (IA : KInv.Args m c (W25 m ρ c)) : W26 m ρ c (Proc.devRef .tc main_v86) = Cert.Spec.tr (m ((c : Thread nD τ).loc main_arg12)) := by
  refine (KHost.v86_eq (W25 m ρ c)).trans ?_
  rw [IA.arg12]
theorem wp (IA : KInv.Args m c (W25 m ρ c)) : W26 m ρ c (Proc.devRef .tc main_v87) = Cert.Spec.tr (m ((c : Thread nD τ).loc main_arg14)) := by
  refine (KHost.v87_eq (W25 m ρ c)).trans ?_
  rw [IA.arg14]
theorem b1 (IA : KInv.Args m c (W25 m ρ c)) (j : Fin 392) :
    (W26 m ρ c (Proc.devRef .tc main_v88)) (ix2 0 j) = Cert.Spec.vec (m ((c : Thread nD τ).loc main_arg9)) j := by
  refine (KHost.v88_apply (W25 m ρ c) j).trans ?_
  rw [IA.arg9]
theorem b2 (IA : KInv.Args m c (W25 m ρ c)) (j : Fin 392) :
    (W26 m ρ c (Proc.devRef .tc main_v89)) (ix2 0 j) = Cert.Spec.vec (m ((c : Thread nD τ).loc main_arg11)) j := by
  refine (KHost.v89_apply (W25 m ρ c) j).trans ?_
  rw [IA.arg11]
theorem b3 (IA : KInv.Args m c (W25 m ρ c)) (j : Fin 392) :
    (W26 m ρ c (Proc.devRef .tc main_v90)) (ix2 0 j) = Cert.Spec.vec (m ((c : Thread nD τ).loc main_arg13)) j := by
  refine (KHost.v90_apply (W25 m ρ c) j).trans ?_
  rw [IA.arg13]
theorem bp (IA : KInv.Args m c (W25 m ρ c)) (j : Fin 138) :
    (W26 m ρ c (Proc.devRef .tc main_v91)) (ix2 0 j) = Cert.Spec.vec (m ((c : Thread nD τ).loc main_arg15)) j := by
  refine (KHost.v91_apply (W25 m ρ c) j).trans ?_
  rw [IA.arg15]

/-- The last stretch pools the states by graph and transposes the weights; the last region is the perceptron of those. -/
theorem out (IA : KInv.Args m c (W25 m ρ c)) (hin : W25 m ρ c (Proc.devRef .tc main_v80) = H) :
    W27 m ρ c (Proc.devRef .tc main_v92)
      = Cert.Spec.mlp (Cert.Spec.scat (m ((c : Thread nD τ).loc main_arg2)) H) (Cert.Spec.tr (m ((c : Thread nD τ).loc main_arg8))) (Cert.Spec.vec (m ((c : Thread nD τ).loc main_arg9))) (Cert.Spec.tr (m ((c : Thread nD τ).loc main_arg10)))
          (Cert.Spec.vec (m ((c : Thread nD τ).loc main_arg11))) (Cert.Spec.tr (m ((c : Thread nD τ).loc main_arg12))) (Cert.Spec.vec (m ((c : Thread nD τ).loc main_arg13))) (Cert.Spec.tr (m ((c : Thread nD τ).loc main_arg14))) (Cert.Spec.vec (m ((c : Thread nD τ).loc main_arg15))) := by
  refine (W27_arr m ρ c 9).trans ((KMlp10.arr (V26 m ρ) c).trans ?_)
  show Cert.Spec.mlp (W26 m ρ c (Proc.devRef .tc main_v83)) (W26 m ρ c (Proc.devRef .tc main_v84))
      (fun j => (W26 m ρ c (Proc.devRef .tc main_v88)) (ix2 0 j)) (W26 m ρ c (Proc.devRef .tc main_v85))
      (fun j => (W26 m ρ c (Proc.devRef .tc main_v89)) (ix2 0 j)) (W26 m ρ c (Proc.devRef .tc main_v86))
      (fun j => (W26 m ρ c (Proc.devRef .tc main_v90)) (ix2 0 j)) (W26 m ρ c (Proc.devRef .tc main_v87))
      (fun j => (W26 m ρ c (Proc.devRef .tc main_v91)) (ix2 0 j)) = _
  rw [pooled m ρ c H IA hin, w1 m ρ c IA, w2 m ρ c IA, w3 m ρ c IA, wp m ρ c IA,
    funext (b1 m ρ c IA), funext (b2 m ρ c IA), funext (b3 m ρ c IA), funext (bp m ρ c IA)]

end Cert.KernelIdeal.KTail

end
-- ==== Proof.KValue.lean ====
import proofs.«400996_j66279935312387_2_alg».proof.Proof.KRound0
import proofs.«400996_j66279935312387_2_alg».proof.Proof.KRound1
import proofs.«400996_j66279935312387_2_alg».proof.Proof.KRound2
import proofs.«400996_j66279935312387_2_alg».proof.Proof.KRound3
import proofs.«400996_j66279935312387_2_alg».proof.Proof.KRound4
import proofs.«400996_j66279935312387_2_alg».proof.Proof.KTail

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- Each round leaves its function of the states before it, and the last stretch the perceptron of the pooled states:
    composed, the network of the argument arrays, provided every source of the edge table is a row number. -/
theorem result_eq (hs : ∀ n : Fin 1600000, 0 ≤ ((m ((c : Thread nD τ).loc main_arg1)) (ix2 0 n)).toInt ∧ ((m ((c : Thread nD τ).loc main_arg1)) (ix2 0 n)).toInt < 100000) : W27 m ρ c (Proc.devRef .tc main_v92)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h1 := KRound0.s5_v20 m ρ c hs
  have I5 := KRound0.inv m ρ c
  have A5 := KRound0.args m ρ c (KRound0.args0 m ρ c)
  have h2 := KRound1.hout m ρ c _ hs I5 h1
  have I10 := KRound1.inv m ρ c I5
  have A10 := KRound1.args m ρ c A5
  have h3 := KRound2.hout m ρ c _ hs I10 h2
  have I15 := KRound2.inv m ρ c I10
  have A15 := KRound2.args m ρ c A10
  have h4 := KRound3.hout m ρ c _ hs I15 h3
  have I20 := KRound3.inv m ρ c I15
  have A20 := KRound3.args m ρ c A15
  have h5 := KRound4.hout m ρ c _ hs I20 h4
  exact KTail.out m ρ c _ (KRound4.args m ρ c A20) h5

end Cert.KernelIdeal.KValue

end
-- ==== Proof.PreRange.lean ====
import proofs.«400996_j66279935312387_2_alg».proof.Defs
import proofs.«400996_j66279935312387_2_alg».proof.Proof.LibTakeFill
import Idealize.ShloMosaic.Lib.ReduceAll
import Idealize.ShloMosaic.Lib.Affine
import Idealize.ShloMosaic.Lib.StableHlo.Predicate
import Idealize.ShloMosaic.Lib.ValueIdx
import Idealize.ShloMosaic.Lib.ValueLayout

namespace Cert.Proof.PreRange

open Idealize.ShloMosaic Idealize.ShloMosaic.ValueIdx Idealize.SL.Sem
open Cert.Pre_finite_inputs

instance : Subsingleton S_.Idx := ⟨fun a b => funext fun d => d.elim0⟩

theorem toInt_zero : (0#32 : BitVec 32).toInt = 0 := by decide
theorem toInt_bound : (100000#32 : BitVec 32).toInt = 100000 := by decide

theorem part4_range [Facts] {F : FTy → Type} [FloatOps F] (T : IVec S2x1600000 32) (a b : IVec S_ 1) (j : S_.Idx)
    (h : fn_part4 (F := F) T a b j = 1#1) (n : Fin 1600000) :
    0 ≤ (T (ix2 0 n)).toInt ∧ (T (ix2 0 n)).toInt < 100000 := by
  unfold fn_part4 at h
  dsimp only at h

  have hall := (IntOp.andi_eq_one.1 h).2

  have hn := Host.reduce_andi_all _ _ _ _ j hall (ix1 n)

  obtain ⟨hge, hlt⟩ := IntOp.andi_eq_one.1 hn
  have hge' := IntOp.cmpi_sge.1 hge
  have hlt' := IntOp.cmpi_slt.1 hlt

  rw [StableHlo.Predicate.bcast_scalar _ Facts.h_S_, constantI_apply,
    TakeFill.row_apply 0 T _ _ 0 rfl n] at hge' hlt'
  rw [toInt_zero] at hge'
  rw [toInt_bound] at hlt'
  exact ⟨hge', hlt'⟩

/-- The precondition's range clause: every source of the edge table is a row number. -/
theorem src_in_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 1600000) :
    0 ≤ ((m ((c.tc : Thread Cert.KernelIdeal.nD Cert.KernelIdeal.τ).loc Cert.KernelIdeal.main_arg1)) (Idealize.ShloMosaic.ValueIdx.ix2 0 n)).toInt
    ∧ ((m ((c.tc : Thread Cert.KernelIdeal.nD Cert.KernelIdeal.τ).loc Cert.KernelIdeal.main_arg1)) (Idealize.ShloMosaic.ValueIdx.ix2 0 n)).toInt < 100000 := by

  have e := congrFun (h c) ix0
  exact part4_range (F := Ideal) _ _ _ ix0 e n

end Cert.Proof.PreRange
-- ==== Proof.RefValue.lean ====
import proofs.«400996_j66279935312387_2_alg».proof.Proof.RefRun
import proofs.«400996_j66279935312387_2_alg».proof.Proof.RefWrites
import proofs.«400996_j66279935312387_2_alg».proof.Proof.Spec

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo

/-- The two edge rows and the sixteen arguments: read by every later stretch, written by none. -/
abbrev liveRefs : List (Ref sig .tc) :=
  [main_v1, main_v3, main_arg0, main_arg1, main_arg2, main_arg3, main_arg4, main_arg5, main_arg6, main_arg7, main_arg8,
    main_arg9, main_arg10, main_arg11, main_arg12, main_arg13, main_arg14, main_arg15]

abbrev Val : Type := Valuation τ sig (Elt Ideal)

/-- W holds at every live buffer what B holds. -/
def Agrees (B W : Val) : Prop :=
  ∀ b ∈ liveRefs, W (Proc.devRef .tc b) = B (Proc.devRef .tc b)

/-- Every source word names a node. -/
def SrcOk (W : Val) : Prop :=
  ∀ n : Fin 1600000, 0 ≤ ((W (Proc.devRef .tc main_v1)) (ValueIdx.ix1 n)).toInt
    ∧ ((W (Proc.devRef .tc main_v1)) (ValueIdx.ix1 n)).toInt < 100000

/-- One round: a message stretch and an update stretch that write no live buffer compose to one layer of the state. -/
theorem round {opsM opsG : List (HloOp τ sig (Elt Ideal))} {wM wG : List (Ref sig .tc)} (l : Fin 5)
    (hin agg out : Val → Cert.Spec.Mat 100000 43)
    (hM : ∀ W, SrcOk W → agg (after opsM W)
      = Cert.Spec.scat (P := 100000) (fun e => Cert.Spec.wrap 0x000186A0#32 (W (Proc.devRef .tc main_v3) e))
          (Cert.Spec.gath (P := 100000) (by decide)
            (Cert.Spec.lin (hin W) (Cert.Spec.member (W (Proc.devRef .tc main_arg3)) l)) (W (Proc.devRef .tc main_v1))))
    (hG : ∀ W, out (after opsG W) = Cert.Spec.gru (agg W) (hin W)
      (Cert.Spec.tr (W (Proc.devRef .tc main_arg4))) (Cert.Spec.tr (W (Proc.devRef .tc main_arg5)))
      (Cert.Spec.vec (W (Proc.devRef .tc main_arg6))) (Cert.Spec.vec (W (Proc.devRef .tc main_arg7))))
    (kM : ∀ (V : Val) r, r ∉ wM → after opsM V (Proc.devRef .tc r) = V (Proc.devRef .tc r))
    (kG : ∀ (V : Val) r, r ∉ wG → after opsG V (Proc.devRef .tc r) = V (Proc.devRef .tc r))
    (dM : ∀ b ∈ liveRefs, b ∉ wM) (dG : ∀ b ∈ liveRefs, b ∉ wG) (kh : ∀ W, hin (after opsM W) = hin W)
    {B W : Val} (hW : Agrees B W) (hB : SrcOk B) (H : Cert.Spec.Mat 100000 43) (hH : hin W = H) :
    Agrees B (after opsG (after opsM W)) ∧ out (after opsG (after opsM W))
      = Cert.Spec.layer H (Cert.Spec.member (B (Proc.devRef .tc main_arg3)) l)
          (B (Proc.devRef .tc main_v1)) (B (Proc.devRef .tc main_v3))
          (Cert.Spec.tr (B (Proc.devRef .tc main_arg4))) (Cert.Spec.tr (B (Proc.devRef .tc main_arg5)))
          (Cert.Spec.vec (B (Proc.devRef .tc main_arg6))) (Cert.Spec.vec (B (Proc.devRef .tc main_arg7))) := by
  have aM : Agrees B (after opsM W) := fun b hb => (kM W b (dM b hb)).trans (hW b hb)
  have sW : SrcOk W := by
    unfold SrcOk
    rw [hW main_v1 (by decide)]
    exact hB
  refine ⟨fun b hb => (kG _ b (dG b hb)).trans (aM b hb), ?_⟩
  rw [hG, hM W sW, kh, hH]
  repeat rw [aM]
  repeat rw [hW]
  rfl
  all_goals decide

theorem result_eq
    (hP1 : ∀ W : Valuation τ sig (Elt Ideal), StableHlo.after (opsP (F := Ideal)) W (Proc.devRef .tc main_v1)
        = Cert.Spec.row (W (Proc.devRef .tc main_arg1)) 0)
    (hP3 : ∀ W : Valuation τ sig (Elt Ideal), StableHlo.after (opsP (F := Ideal)) W (Proc.devRef .tc main_v3)
        = Cert.Spec.row (W (Proc.devRef .tc main_arg1)) 1)
    (hM0 : ∀ W : Valuation τ sig (Elt Ideal), (∀ n : Fin 1600000, 0 ≤ ((W (Proc.devRef .tc main_v1)) (ValueIdx.ix1 n)).toInt
        ∧ ((W (Proc.devRef .tc main_v1)) (ValueIdx.ix1 n)).toInt < 100000) →
      StableHlo.after (opsM0 (F := Ideal)) W (Proc.devRef .tc main_v21)
        = Cert.Spec.scat (P := 100000) (fun e => Cert.Spec.wrap 0x000186A0#32 (W (Proc.devRef .tc main_v3) e))
            (Cert.Spec.gath (P := 100000) (by decide)
              (Cert.Spec.lin (W (Proc.devRef .tc main_arg0)) (Cert.Spec.member (W (Proc.devRef .tc main_arg3)) 0))
              (W (Proc.devRef .tc main_v1))))
    (hG0 : ∀ W : Valuation τ sig (Elt Ideal), StableHlo.after (opsG0 (F := Ideal)) W (Proc.devRef .tc main_v59)
        = Cert.Spec.gru (W (Proc.devRef .tc main_v21)) (W (Proc.devRef .tc main_arg0))
            (Cert.Spec.tr (W (Proc.devRef .tc main_arg4))) (Cert.Spec.tr (W (Proc.devRef .tc main_arg5)))
            (Cert.Spec.vec (W (Proc.devRef .tc main_arg6))) (Cert.Spec.vec (W (Proc.devRef .tc main_arg7))))
    (hM1 : ∀ W : Valuation τ sig (Elt Ideal), (∀ n : Fin 1600000, 0 ≤ ((W (Proc.devRef .tc main_v1)) (ValueIdx.ix1 n)).toInt
        ∧ ((W (Proc.devRef .tc main_v1)) (ValueIdx.ix1 n)).toInt < 100000) →
      StableHlo.after (opsM1 (F := Ideal)) W (Proc.devRef .tc main_v77)
        = Cert.Spec.scat (P := 100000) (fun e => Cert.Spec.wrap 0x000186A0#32 (W (Proc.devRef .tc main_v3) e))
            (Cert.Spec.gath (P := 100000) (by decide)
              (Cert.Spec.lin (W (Proc.devRef .tc main_v59)) (Cert.Spec.member (W (Proc.devRef .tc main_arg3)) 1))
              (W (Proc.devRef .tc main_v1))))
    (hG1 : ∀ W : Valuation τ sig (Elt Ideal), StableHlo.after (opsG1 (F := Ideal)) W (Proc.devRef .tc main_v115)
        = Cert.Spec.gru (W (Proc.devRef .tc main_v77)) (W (Proc.devRef .tc main_v59))
            (Cert.Spec.tr (W (Proc.devRef .tc main_arg4))) (Cert.Spec.tr (W (Proc.devRef .tc main_arg5)))
            (Cert.Spec.vec (W (Proc.devRef .tc main_arg6))) (Cert.Spec.vec (W (Proc.devRef .tc main_arg7))))
    (hM2 : ∀ W : Valuation τ sig (Elt Ideal), (∀ n : Fin 1600000, 0 ≤ ((W (Proc.devRef .tc main_v1)) (ValueIdx.ix1 n)).toInt
        ∧ ((W (Proc.devRef .tc main_v1)) (ValueIdx.ix1 n)).toInt < 100000) →
      StableHlo.after (opsM2 (F := Ideal)) W (Proc.devRef .tc main_v133)
        = Cert.Spec.scat (P := 100000) (fun e => Cert.Spec.wrap 0x000186A0#32 (W (Proc.devRef .tc main_v3) e))
            (Cert.Spec.gath (P := 100000) (by decide)
              (Cert.Spec.lin (W (Proc.devRef .tc main_v115)) (Cert.Spec.member (W (Proc.devRef .tc main_arg3)) 2))
              (W (Proc.devRef .tc main_v1))))
    (hG2 : ∀ W : Valuation τ sig (Elt Ideal), StableHlo.after (opsG2 (F := Ideal)) W (Proc.devRef .tc main_v171)
        = Cert.Spec.gru (W (Proc.devRef .tc main_v133)) (W (Proc.devRef .tc main_v115))
            (Cert.Spec.tr (W (Proc.devRef .tc main_arg4))) (Cert.Spec.tr (W (Proc.devRef .tc main_arg5)))
            (Cert.Spec.vec (W (Proc.devRef .tc main_arg6))) (Cert.Spec.vec (W (Proc.devRef .tc main_arg7))))
    (hM3 : ∀ W : Valuation τ sig (Elt Ideal), (∀ n : Fin 1600000, 0 ≤ ((W (Proc.devRef .tc main_v1)) (ValueIdx.ix1 n)).toInt
        ∧ ((W (Proc.devRef .tc main_v1)) (ValueIdx.ix1 n)).toInt < 100000) →
      StableHlo.after (opsM3 (F := Ideal)) W (Proc.devRef .tc main_v189)
        = Cert.Spec.scat (P := 100000) (fun e => Cert.Spec.wrap 0x000186A0#32 (W (Proc.devRef .tc main_v3) e))
            (Cert.Spec.gath (P := 100000) (by decide)
              (Cert.Spec.lin (W (Proc.devRef .tc main_v171)) (Cert.Spec.member (W (Proc.devRef .tc main_arg3)) 3))
              (W (Proc.devRef .tc main_v1))))
    (hG3 : ∀ W : Valuation τ sig (Elt Ideal), StableHlo.after (opsG3 (F := Ideal)) W (Proc.devRef .tc main_v227)
        = Cert.Spec.gru (W (Proc.devRef .tc main_v189)) (W (Proc.devRef .tc main_v171))
            (Cert.Spec.tr (W (Proc.devRef .tc main_arg4))) (Cert.Spec.tr (W (Proc.devRef .tc main_arg5)))
            (Cert.Spec.vec (W (Proc.devRef .tc main_arg6))) (Cert.Spec.vec (W (Proc.devRef .tc main_arg7))))
    (hM4 : ∀ W : Valuation τ sig (Elt Ideal), (∀ n : Fin 1600000, 0 ≤ ((W (Proc.devRef .tc main_v1)) (ValueIdx.ix1 n)).toInt
        ∧ ((W (Proc.devRef .tc main_v1)) (ValueIdx.ix1 n)).toInt < 100000) →
      StableHlo.after (opsM4 (F := Ideal)) W (Proc.devRef .tc main_v245)
        = Cert.Spec.scat (P := 100000) (fun e => Cert.Spec.wrap 0x000186A0#32 (W (Proc.devRef .tc main_v3) e))
            (Cert.Spec.gath (P := 100000) (by decide)
              (Cert.Spec.lin (W (Proc.devRef .tc main_v227)) (Cert.Spec.member (W (Proc.devRef .tc main_arg3)) 4))
              (W (Proc.devRef .tc main_v1))))
    (hG4 : ∀ W : Valuation τ sig (Elt Ideal), StableHlo.after (opsG4 (F := Ideal)) W (Proc.devRef .tc main_v283)
        = Cert.Spec.gru (W (Proc.devRef .tc main_v245)) (W (Proc.devRef .tc main_v227))
            (Cert.Spec.tr (W (Proc.devRef .tc main_arg4))) (Cert.Spec.tr (W (Proc.devRef .tc main_arg5)))
            (Cert.Spec.vec (W (Proc.devRef .tc main_arg6))) (Cert.Spec.vec (W (Proc.devRef .tc main_arg7))))
    (hQ : ∀ W : Valuation τ sig (Elt Ideal), StableHlo.after (opsQ (F := Ideal)) W (Proc.devRef .tc main_v286)
        = Cert.Spec.scat (P := 2048) (W (Proc.devRef .tc main_arg2)) (W (Proc.devRef .tc main_v283)))
    (hD : ∀ W : Valuation τ sig (Elt Ideal), StableHlo.after (opsD (F := Ideal)) W (Proc.devRef .tc main_v315)
        = Cert.Spec.mlp (W (Proc.devRef .tc main_v286))
            (Cert.Spec.tr (W (Proc.devRef .tc main_arg8))) (Cert.Spec.vec (W (Proc.devRef .tc main_arg9)))
            (Cert.Spec.tr (W (Proc.devRef .tc main_arg10))) (Cert.Spec.vec (W (Proc.devRef .tc main_arg11)))
            (Cert.Spec.tr (W (Proc.devRef .tc main_arg12))) (Cert.Spec.vec (W (Proc.devRef .tc main_arg13)))
            (Cert.Spec.tr (W (Proc.devRef .tc main_arg14))) (Cert.Spec.vec (W (Proc.devRef .tc main_arg15))))
    (m : (ℓ : Loc nD τ sig) → Buf (Elt Ideal) ℓ) (c : Dev nD)
    (hs : ∀ n : Fin 1600000, 0 ≤ ((m ((c.tc : Thread nD τ).loc main_arg1)) (ValueIdx.ix2 0 n)).toInt
      ∧ ((m ((c.tc : Thread nD τ).loc main_arg1)) (ValueIdx.ix2 0 n)).toInt < 100000) :
    StableHlo.after (ops (F := Ideal)) (launchContents m c) (Proc.devRef .tc main_v315)
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) := by
  unfold ops
  simp only [StableHlo.after_append]
  have hB : SrcOk (after (opsP (F := Ideal)) (launchContents m c)) := fun n => by
    rw [hP1]
    exact hs n
  obtain ⟨a1, e1⟩ := round 0 (fun W => W (Proc.devRef .tc main_arg0)) (fun W => W (Proc.devRef .tc main_v21))
    (fun W => W (Proc.devRef .tc main_v59)) hM0 hG0 opsM0_keep opsG0_keep (by decide) (by decide)
    (fun W => opsM0_keep W main_arg0 (by decide)) (fun _ _ => rfl) hB _ rfl
  obtain ⟨a2, e2⟩ := round 1 (fun W => W (Proc.devRef .tc main_v59)) (fun W => W (Proc.devRef .tc main_v77))
    (fun W => W (Proc.devRef .tc main_v115)) hM1 hG1 opsM1_keep opsG1_keep (by decide) (by decide)
    (fun W => opsM1_keep W main_v59 (by decide)) a1 hB _ e1
  obtain ⟨a3, e3⟩ := round 2 (fun W => W (Proc.devRef .tc main_v115)) (fun W => W (Proc.devRef .tc main_v133))
    (fun W => W (Proc.devRef .tc main_v171)) hM2 hG2 opsM2_keep opsG2_keep (by decide) (by decide)
    (fun W => opsM2_keep W main_v115 (by decide)) a2 hB _ e2
  obtain ⟨a4, e4⟩ := round 3 (fun W => W (Proc.devRef .tc main_v171)) (fun W => W (Proc.devRef .tc main_v189))
    (fun W => W (Proc.devRef .tc main_v227)) hM3 hG3 opsM3_keep opsG3_keep (by decide) (by decide)
    (fun W => opsM3_keep W main_v171 (by decide)) a3 hB _ e3
  obtain ⟨a5, e5⟩ := round 4 (fun W => W (Proc.devRef .tc main_v227)) (fun W => W (Proc.devRef .tc main_v245))
    (fun W => W (Proc.devRef .tc main_v283)) hM4 hG4 opsM4_keep opsG4_keep (by decide) (by decide)
    (fun W => opsM4_keep W main_v227 (by decide)) a4 hB _ e4
  rw [hD, hQ, e5]
  repeat rw [opsQ_keep]
  repeat rw [a5]
  rw [hP1, hP3]
  repeat rw [opsP_keep]
  rfl
  all_goals decide

end Cert.ReferenceIdeal.RefValue

end
-- ==== Proof.RefPrep.lean ====
import proofs.«400996_j66279935312387_2_alg».proof.Proof.RefOps
import proofs.«400996_j66279935312387_2_alg».proof.Proof.Spec
import proofs.«400996_j66279935312387_2_alg».proof.Proof.LibTakeFill

noncomputable section

namespace Cert.ReferenceIdeal.RefPrep

open Cert.ReferenceIdeal Cert.ReferenceIdeal.Gen Cert.ReferenceIdeal.Value
open Idealize.ShloMosaic Idealize.ShloMosaic.TcCoe Idealize.ShloMosaic.ValueIdx Idealize.ShloMosaic.StableHlo
open Idealize.ShloMosaic.TakeFill

/-- Row r of the edge table, cut out and cast to a vector, holds at n the table at (r, n). -/
theorem row_eq (e : IVec S2x1600000 32) (r : Fin 2) (hs : S2x1600000.Slices ![r.val, 0] S1x1600000) :
    shapeCast S1600000 (extractStridedSlice S1x1600000 ![r.val, 0] e hs) shapeCasts_S1x1600000_S1600000
      = Cert.Spec.row e r := by
  funext i
  rw [eq_ix1 i]
  exact row_apply r.val e hs _ r rfl (i 0)

theorem src_eq (W : Valuation τ sig (Elt Ideal)) :
    StableHlo.after (opsP (F := Ideal)) W (Proc.devRef .tc main_v1)
      = Cert.Spec.row (W (Proc.devRef .tc main_arg1)) 0 := by
  after_results
  exact row_eq _ 0 slices_S2x1600000_S1x1600000_0_0

theorem dst_eq (W : Valuation τ sig (Elt Ideal)) :
    StableHlo.after (opsP (F := Ideal)) W (Proc.devRef .tc main_v3)
      = Cert.Spec.row (W (Proc.devRef .tc main_arg1)) 1 := by
  after_results
  exact row_eq _ 1 slices_S2x1600000_S1x1600000_1_0

end Cert.ReferenceIdeal.RefPrep

end
-- ==== Proof.RefDense.lean ====
import Idealize.ShloMosaic.PureOps.Ideal.Laws
import Idealize.ShloMosaic.Lib.ValueLayout
import Idealize.ShloMosaic.Lib.KernelVsHost
import Idealize.ShloMosaic.Lib.StackMember
import Idealize.ShloMosaic.Lib.IdealHost
import Idealize.ShloMosaic.Lib.Pipeline.Value
import proofs.«400996_j66279935312387_2_alg».proof.Proof.Spec

noncomputable section

namespace Cert.RefDense

open Idealize.ShloMosaic Idealize.ShloMosaic.ValueIdx Idealize.ShloMosaic.StackMember
open scoped BigOperators

variable {P K C : Nat}

/-- Two matrices that agree at every (p, q) are equal. -/
theorem ext2 {α : Type} {f g : (⟨2, ![P, C]⟩ : Shape).Idx → α} (h : ∀ p q, f (ix2 p q) = g (ix2 p q)) : f = g := by
  funext i
  rw [eq_ix2 i]
  exact h (i 0) (i 1)

/-- A vector laid as the one row of a 1×C matrix reads, at (0, q), its entry q. -/
theorem row_of_vec_apply {α : Type} (h : (⟨1, ![C]⟩ : Shape).BroadcastsInDim ⟨2, ![1, C]⟩ ![1])
    (b : (⟨1, ![C]⟩ : Shape).Idx → α) (q : Fin C) :
    broadcastInDim ⟨2, ![1, C]⟩ ![1] h b (ix2 (0 : Fin 1) q) = b (ix1 q) := by
  refine broadcastInDim_apply ![1] h b (ix2 (0 : Fin 1) q) (ix1 q) fun a => ?_
  match a with
  | ⟨0, _⟩ =>
    show q.val = if C = 1 then 0 else q.val
    have := q.isLt
    split <;> omega

/-- That row repeated down P rows reads, at (p, q), entry q of the vector. -/
theorem bias_apply {α : Type} (h₁ : (⟨1, ![C]⟩ : Shape).BroadcastsInDim ⟨2, ![1, C]⟩ ![1])
    (h₂ : (⟨2, ![1, C]⟩ : Shape).BroadcastsInDim ⟨2, ![P, C]⟩ ![0, 1])
    (b : (⟨1, ![C]⟩ : Shape).Idx → α) (p : Fin P) (q : Fin C) :
    broadcastInDim ⟨2, ![P, C]⟩ ![0, 1] h₂ (broadcastInDim ⟨2, ![1, C]⟩ ![1] h₁ b) (ix2 p q) = b (ix1 q) := by
  rw [broadcastInDim_oneRow_apply, row_of_vec_apply]

/-- A product with the plain dimension numbers sums x(p, k) · w(k, q) over k in order: the specification's product. -/
theorem lin_eq (d : DotDims ⟨2, ![P, K]⟩ ⟨2, ![K, C]⟩ ⟨2, ![P, C]⟩) (hd : d = DotDims.plain P K C)
    (x : FVec Ideal ⟨2, ![P, K]⟩ .f32) (w : FVec Ideal ⟨2, ![K, C]⟩ .f32) :
    Host.dotGeneral d none x w = Cert.Spec.lin x w := by
  subst hd
  exact ext2 (dotGeneral_plain_apply none x w)

/-- The transposed matrix is the specification's transpose. -/
theorem tr_eq (w : FVec Ideal ⟨2, ![C, K]⟩ .f32) (ht : (⟨2, ![C, K]⟩ : Shape).Transposes [1, 0] ⟨2, ![K, C]⟩) :
    transpose ⟨2, ![K, C]⟩ [1, 0] w ht = Cert.Spec.tr w :=
  ext2 (transpose_ix2_apply w ht)

/-- x · wᵀ plus the bias laid down the rows is the specification's dense layer. -/
theorem dense_eq (d : DotDims ⟨2, ![P, K]⟩ ⟨2, ![K, C]⟩ ⟨2, ![P, C]⟩) (hd : d = DotDims.plain P K C)
    (x : FVec Ideal ⟨2, ![P, K]⟩ .f32) (w : FVec Ideal ⟨2, ![C, K]⟩ .f32) (b : FVec Ideal ⟨1, ![C]⟩ .f32)
    (ht : (⟨2, ![C, K]⟩ : Shape).Transposes [1, 0] ⟨2, ![K, C]⟩)
    (h₁ : (⟨1, ![C]⟩ : Shape).BroadcastsInDim ⟨2, ![1, C]⟩ ![1])
    (h₂ : (⟨2, ![1, C]⟩ : Shape).BroadcastsInDim ⟨2, ![P, C]⟩ ![0, 1]) :
    addf (Host.dotGeneral d none x (transpose ⟨2, ![K, C]⟩ [1, 0] w ht))
        (broadcastInDim ⟨2, ![P, C]⟩ ![0, 1] h₂ (broadcastInDim ⟨2, ![1, C]⟩ ![1] h₁ b))
      = Cert.Spec.dense x (Cert.Spec.tr w) (Cert.Spec.vec b) := by
  rw [lin_eq d hd, tr_eq]
  refine ext2 fun p q => ?_
  rw [addf_apply, bias_apply]
  rfl

/-- The larger of each entry and the zero word is the specification's max(x, 0). -/
theorem relu_eq (h : (⟨0, ![]⟩ : Shape).BroadcastsInDim ⟨2, ![P, C]⟩ ![]) (y : FVec Ideal ⟨2, ![P, C]⟩ .f32) :
    maximumf y (broadcastInDim ⟨2, ![P, C]⟩ ![] h (constant (F := Ideal) ⟨0, ![]⟩ .f32 0x00000000#32))
      = Cert.Spec.relu y := by
  funext i
  rw [maximumf_apply, broadcastInDim_scalar_apply]
  rfl

/-- One over one plus exp(−y), the ones being the word of 1.0, is the logistic function of each entry. -/
theorem logistic_apply (h : (⟨0, ![]⟩ : Shape).BroadcastsInDim ⟨2, ![P, C]⟩ ![]) (y : FVec Ideal ⟨2, ![P, C]⟩ .f32)
    (i : (⟨2, ![P, C]⟩ : Shape).Idx) :
    Host.divf (broadcastInDim ⟨2, ![P, C]⟩ ![] h (constant (F := Ideal) ⟨0, ![]⟩ .f32 0x3F800000#32))
        (addf (broadcastInDim ⟨2, ![P, C]⟩ ![] h (constant (F := Ideal) ⟨0, ![]⟩ .f32 0x3F800000#32))
          (Host.exp (Host.negf y))) i
      = Ideal.logistic (y i) := by
  rw [hostDivf_apply, addf_apply, broadcastInDim_scalar_apply, constant_apply, Ideal.ofBits_one_f32]
  rfl

end Cert.RefDense

end
-- ==== Proof.RefMsgTerm.lean ====
import proofs.«400996_j66279935312387_2_alg».proof.Proof.Gen.ReferenceIdeal
import proofs.«400996_j66279935312387_2_alg».proof.Proof.LibTakeFill
import proofs.«400996_j66279935312387_2_alg».proof.Proof.RefDense

noncomputable section

namespace Cert.ReferenceIdeal.RefMsgTerm

open Cert.ReferenceIdeal Cert.ReferenceIdeal.Gen Cert.RefDense
open Idealize.ShloMosaic Idealize.ShloMosaic.ValueIdx Idealize.ShloMosaic.TakeFill Idealize.ShloMosaic.GatherRows

/-- A vector of words, 100000 added to each negative one, laid as a column. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Rows gathered at a column of words are the specification's: row n is the row its word names, clamped. -/
theorem gath_eq (x : FVec Ideal S100000x43 .f32) (v : IVec S1600000 32) :
    Host.gather gather_S100000x43_S1600000x1_S1600000x43_1_0_n_n_0_1_143 x
        (broadcastInDim S1600000x1 ![0] bcast_S1600000_S1600000x1_0 v)
      = Cert.Spec.gath (P := 100000) (by decide) x v :=
  ext2 fun n q => (gather_rows_apply (by decide) _ rfl rfl rfl rfl rfl rfl x _ n q).trans
    (congrArg (fun w => x (ix2 (Cert.Spec.rowOf 100000 (by decide) w) q)) (col_apply _ v n 0))

/-- A round's messages: with every source word a node number, the rows of h · s_l taken at src and added at wrapped dst. -/
theorem msg_term (l : Fin 5) (hsl : S5x43x43.Slices ![l.val, 0, 0] S1x43x43) (h : FVec Ideal S100000x43 .f32)
    (s : FVec Ideal S5x43x43 .f32) (src dst : IVec S1600000 32)
    (hs : ∀ n : Fin 1600000, 0 ≤ (src (ix1 n)).toInt ∧ (src (ix1 n)).toInt < 100000) :
    Host.scatterAdd (F := Ideal) (φ := .f32) scatter_S100000x43_S1600000x1_S1600000x43_1_0_0_1
        (broadcastInDim S100000x43 ![] bcast_S_S100000x43 (constant (F := Ideal) S_ .f32 0x00000000#32)) (wrapCol dst)
        (Host.gather gather_S100000x43_S1600000x1_S1600000x43_1_0_n_n_0_1_143
          (Host.dotGeneral (F := Ideal) dot_S100000x43_S43x43_S100000x43_1_0_0_1_n_n none h
            (shapeCast S43x43 (extractStridedSlice S1x43x43 ![l.val, 0, 0] s hsl) shapeCasts_S1x43x43_S43x43))
          (wrapCol src))
      = Cert.Spec.scat (fun e => Cert.Spec.wrap 0x000186A0#32 (dst e))
          (Cert.Spec.gath (P := 100000) (by decide) (Cert.Spec.lin h (Cert.Spec.member s l)) src) := by
  have hw : select (cmpi .slt src (broadcastInDim S1600000 ![] bcast_S_S1600000 (constantI S_ 32 0#32)))
      (addi src (broadcastInDim S1600000 ![] bcast_S_S1600000 (constantI S_ 32 100000#32))) src = src :=
    funext fun i => wrap_select _ _ (by rw [eq_ix1 i]; exact (hs _).1)
  unfold wrapCol
  rw [lin_eq dot_S100000x43_S43x43_S100000x43_1_0_0_1_n_n rfl, show shapeCast S43x43 _ shapeCasts_S1x43x43_S43x43 = Cert.Spec.member s l from
    ext2 (member3_apply l.val s hsl _ l rfl), hw, gath_eq]
  exact ext2 (scatter_zero_rows_apply _ rfl rfl rfl rfl _ _ _ _)

end Cert.ReferenceIdeal.RefMsgTerm

end
-- ==== Proof.RefMsg0.lean ====
import proofs.«400996_j66279935312387_2_alg».proof.Proof.RefOps
import proofs.«400996_j66279935312387_2_alg».proof.Proof.RefMsgTerm

noncomputable section

namespace Cert.ReferenceIdeal.RefMsg0

open Cert.ReferenceIdeal Cert.ReferenceIdeal.Gen Cert.ReferenceIdeal.Value
open Idealize.ShloMosaic Idealize.ShloMosaic.TcCoe Idealize.ShloMosaic.ValueIdx Idealize.ShloMosaic.StableHlo

/-- The first round's message stretch leaves the rows of h · s_0 taken at the sources and added at the wrapped destinations. -/
theorem msg_0 (W : Valuation τ sig (Elt Ideal))
    (hs : ∀ n : Fin 1600000, 0 ≤ ((W (Proc.devRef .tc main_v1)) (ValueIdx.ix1 n)).toInt
      ∧ ((W (Proc.devRef .tc main_v1)) (ValueIdx.ix1 n)).toInt < 100000) :
    StableHlo.after (opsM0 (F := Ideal)) W (Proc.devRef .tc main_v21)
      = Cert.Spec.scat (fun e => Cert.Spec.wrap 0x000186A0#32 (W (Proc.devRef .tc main_v3) e))
          (Cert.Spec.gath (P := 100000) (by decide)
            (Cert.Spec.lin (W (Proc.devRef .tc main_arg0) : Cert.Spec.Mat 100000 43)
              (Cert.Spec.member (W (Proc.devRef .tc main_arg3)) 0))
            (W (Proc.devRef .tc main_v1))) := by
  after_results_simp
  exact RefMsgTerm.msg_term 0 slices_S5x43x43_S1x43x43_0_0_0 _ _ _ _ hs

end Cert.ReferenceIdeal.RefMsg0

end
-- ==== Proof.RefMsg1.lean ====
import proofs.«400996_j66279935312387_2_alg».proof.Proof.RefOps
import proofs.«400996_j66279935312387_2_alg».proof.Proof.RefMsgTerm

noncomputable section

namespace Cert.ReferenceIdeal.RefMsg1

open Cert.ReferenceIdeal Cert.ReferenceIdeal.Gen Cert.ReferenceIdeal.Value
open Idealize.ShloMosaic Idealize.ShloMosaic.TcCoe Idealize.ShloMosaic.ValueIdx Idealize.ShloMosaic.StableHlo

/-- The second round's message stretch leaves the rows of h · s_1 taken at the sources and added at the wrapped destinations. -/
theorem msg_1 (W : Valuation τ sig (Elt Ideal))
    (hs : ∀ n : Fin 1600000, 0 ≤ ((W (Proc.devRef .tc main_v1)) (ValueIdx.ix1 n)).toInt
      ∧ ((W (Proc.devRef .tc main_v1)) (ValueIdx.ix1 n)).toInt < 100000) :
    StableHlo.after (opsM1 (F := Ideal)) W (Proc.devRef .tc main_v77)
      = Cert.Spec.scat (fun e => Cert.Spec.wrap 0x000186A0#32 (W (Proc.devRef .tc main_v3) e))
          (Cert.Spec.gath (P := 100000) (by decide)
            (Cert.Spec.lin (W (Proc.devRef .tc main_v59) : Cert.Spec.Mat 100000 43)
              (Cert.Spec.member (W (Proc.devRef .tc main_arg3)) 1))
            (W (Proc.devRef .tc main_v1))) := by
  after_results_simp
  exact RefMsgTerm.msg_term 1 slices_S5x43x43_S1x43x43_1_0_0 _ _ _ _ hs

end Cert.ReferenceIdeal.RefMsg1

end
-- ==== Proof.RefMsg2.lean ====
import proofs.«400996_j66279935312387_2_alg».proof.Proof.RefOps
import proofs.«400996_j66279935312387_2_alg».proof.Proof.RefMsgTerm

noncomputable section

namespace Cert.ReferenceIdeal.RefMsg2

open Cert.ReferenceIdeal Cert.ReferenceIdeal.Gen Cert.ReferenceIdeal.Value
open Idealize.ShloMosaic Idealize.ShloMosaic.TcCoe Idealize.ShloMosaic.ValueIdx Idealize.ShloMosaic.StableHlo

/-- The third round's message stretch leaves the rows of h · s_2 taken at the sources and added at the wrapped destinations. -/
theorem msg_2 (W : Valuation τ sig (Elt Ideal))
    (hs : ∀ n : Fin 1600000, 0 ≤ ((W (Proc.devRef .tc main_v1)) (ValueIdx.ix1 n)).toInt
      ∧ ((W (Proc.devRef .tc main_v1)) (ValueIdx.ix1 n)).toInt < 100000) :
    StableHlo.after (opsM2 (F := Ideal)) W (Proc.devRef .tc main_v133)
      = Cert.Spec.scat (fun e => Cert.Spec.wrap 0x000186A0#32 (W (Proc.devRef .tc main_v3) e))
          (Cert.Spec.gath (P := 100000) (by decide)
            (Cert.Spec.lin (W (Proc.devRef .tc main_v115) : Cert.Spec.Mat 100000 43)
              (Cert.Spec.member (W (Proc.devRef .tc main_arg3)) 2))
            (W (Proc.devRef .tc main_v1))) := by
  after_results_simp
  exact RefMsgTerm.msg_term 2 slices_S5x43x43_S1x43x43_2_0_0 _ _ _ _ hs

end Cert.ReferenceIdeal.RefMsg2

end
-- ==== Proof.RefMsg3.lean ====
import proofs.«400996_j66279935312387_2_alg».proof.Proof.RefOps
import proofs.«400996_j66279935312387_2_alg».proof.Proof.RefMsgTerm

noncomputable section

namespace Cert.ReferenceIdeal.RefMsg3

open Cert.ReferenceIdeal Cert.ReferenceIdeal.Gen Cert.ReferenceIdeal.Value
open Idealize.ShloMosaic Idealize.ShloMosaic.TcCoe Idealize.ShloMosaic.ValueIdx Idealize.ShloMosaic.StableHlo

/-- The fourth round's message stretch leaves the rows of h · s_3 taken at the sources and added at the wrapped destinations. -/
theorem msg_3 (W : Valuation τ sig (Elt Ideal))
    (hs : ∀ n : Fin 1600000, 0 ≤ ((W (Proc.devRef .tc main_v1)) (ValueIdx.ix1 n)).toInt
      ∧ ((W (Proc.devRef .tc main_v1)) (ValueIdx.ix1 n)).toInt < 100000) :
    StableHlo.after (opsM3 (F := Ideal)) W (Proc.devRef .tc main_v189)
      = Cert.Spec.scat (fun e => Cert.Spec.wrap 0x000186A0#32 (W (Proc.devRef .tc main_v3) e))
          (Cert.Spec.gath (P := 100000) (by decide)
            (Cert.Spec.lin (W (Proc.devRef .tc main_v171) : Cert.Spec.Mat 100000 43)
              (Cert.Spec.member (W (Proc.devRef .tc main_arg3)) 3))
            (W (Proc.devRef .tc main_v1))) := by
  after_results_simp
  exact RefMsgTerm.msg_term 3 slices_S5x43x43_S1x43x43_3_0_0 _ _ _ _ hs

end Cert.ReferenceIdeal.RefMsg3

end
-- ==== Proof.RefMsg4.lean ====
import proofs.«400996_j66279935312387_2_alg».proof.Proof.RefOps
import proofs.«400996_j66279935312387_2_alg».proof.Proof.RefMsgTerm

noncomputable section

namespace Cert.ReferenceIdeal.RefMsg4

open Cert.ReferenceIdeal Cert.ReferenceIdeal.Gen Cert.ReferenceIdeal.Value
open Idealize.ShloMosaic Idealize.ShloMosaic.TcCoe Idealize.ShloMosaic.ValueIdx Idealize.ShloMosaic.StableHlo

/-- The fifth round's message stretch leaves the rows of h · s_4 taken at the sources and added at the wrapped destinations. -/
theorem msg_4 (W : Valuation τ sig (Elt Ideal))
    (hs : ∀ n : Fin 1600000, 0 ≤ ((W (Proc.devRef .tc main_v1)) (ValueIdx.ix1 n)).toInt
      ∧ ((W (Proc.devRef .tc main_v1)) (ValueIdx.ix1 n)).toInt < 100000) :
    StableHlo.after (opsM4 (F := Ideal)) W (Proc.devRef .tc main_v245)
      = Cert.Spec.scat (fun e => Cert.Spec.wrap 0x000186A0#32 (W (Proc.devRef .tc main_v3) e))
          (Cert.Spec.gath (P := 100000) (by decide)
            (Cert.Spec.lin (W (Proc.devRef .tc main_v227) : Cert.Spec.Mat 100000 43)
              (Cert.Spec.member (W (Proc.devRef .tc main_arg3)) 4))
            (W (Proc.devRef .tc main_v1))) := by
  after_results_simp
  exact RefMsgTerm.msg_term 4 slices_S5x43x43_S1x43x43_4_0_0 _ _ _ _ hs

end Cert.ReferenceIdeal.RefMsg4

end
-- ==== Proof.RefGruCell.lean ====
import proofs.«400996_j66279935312387_2_alg».proof.Proof.Gen.ReferenceIdeal
import proofs.«400996_j66279935312387_2_alg».proof.Proof.RefDense

noncomputable section

open Idealize.ShloMosaic Idealize.ShloMosaic.ValueIdx

namespace Cert.ReferenceIdeal.RefGruCell

open Cert.ReferenceIdeal Cert.ReferenceIdeal.Gen Cert.RefDense

/-- x · aᵀ + b with the bias laid along every row: the pre-activations of the three gates, 43 columns each. -/
def gates (x : FVec Ideal S100000x43 .f32) (a : FVec Ideal S129x43 .f32) (b : FVec Ideal S129 .f32) :
    FVec Ideal S100000x129 .f32 :=
  addf (Host.dotGeneral dot_S100000x43_S43x129_S100000x129_1_0_0_1_n_n none x
      (transpose S43x129 [1, 0] a transposes_S129x43_S43x129_1_0))
    (broadcastInDim S100000x129 ![0, 1] bcast_S1x129_S100000x129_0_1 (broadcastInDim S1x129 ![1] bcast_S129_S1x129_1 b))

theorem gates_eq (x : FVec Ideal S100000x43 .f32) (a : FVec Ideal S129x43 .f32) (b : FVec Ideal S129 .f32) :
    gates x a b = Cert.Spec.dense x (Cert.Spec.tr a) (Cert.Spec.vec b) :=
  dense_eq dot_S100000x43_S43x129_S100000x129_1_0_0_1_n_n rfl x a b _ _ _

/-- The 43 columns of g from column o on. -/
def band (o : Nat) (hs : S100000x129.Slices ![0, o] S100000x43) (g : FVec Ideal S100000x129 .f32) :
    FVec Ideal S100000x43 .f32 :=
  extractStridedSlice S100000x43 ![0, o] g hs

theorem band_apply (o : Nat) (hs : S100000x129.Slices ![0, o] S100000x43) (g : FVec Ideal S100000x129 .f32)
    (p : Fin 100000) (q : Fin 43) (ho : q.val + o < 129) : band o hs g (ix2 p q) = g (ix2 p ⟨q.val + o, ho⟩) :=
  slice2_axis1_apply o g hs p q _ (Nat.add_comm _ _)

/-- The word of 1.0 at every entry. -/
abbrev ones : FVec Ideal S100000x43 .f32 :=
  broadcastInDim S100000x43 ![] bcast_S_S100000x43 (constant (F := Ideal) S_ .f32 0x3F800000#32)

/-- One divided by one plus exp(−x). -/
def sigm (x : FVec Ideal S100000x43 .f32) : FVec Ideal S100000x43 .f32 :=
  Host.divf ones (addf ones (Host.exp (Host.negf x)))

/-- (1 − z) · n + z · h from the bands of the two pre-activation arrays: r and z logistic, n a tanh. -/
def combine (gi gh : FVec Ideal S100000x129 .f32) (h : FVec Ideal S100000x43 .f32) : FVec Ideal S100000x43 .f32 :=
  addf
    (mulf
      (subf ones (sigm (addf (band 43 slices_S100000x129_S100000x43_0_43 gi) (band 43 slices_S100000x129_S100000x43_0_43 gh))))
      (Host.tanh (addf (band 86 slices_S100000x129_S100000x43_0_86 gi)
        (mulf (sigm (addf (band 0 slices_S100000x129_S100000x43_0_0 gi) (band 0 slices_S100000x129_S100000x43_0_0 gh)))
          (band 86 slices_S100000x129_S100000x43_0_86 gh)))))
    (mulf (sigm (addf (band 43 slices_S100000x129_S100000x43_0_43 gi) (band 43 slices_S100000x129_S100000x43_0_43 gh))) h)

/-- At (p, q) the combination is the specification's cell on row p of the two arrays. -/
theorem combine_apply (gi gh : FVec Ideal S100000x129 .f32) (h : FVec Ideal S100000x43 .f32) (p : Fin 100000)
    (q : Fin 43) :
    combine gi gh h (ix2 p q)
      = Cert.Spec.gruCell (fun j => gi (ix2 p j)) (fun j => gh (ix2 p j)) (h (ix2 p q)) q := by
  unfold combine sigm ones
  rw [addf_apply, mulf_apply, mulf_apply, subf_apply, logistic_apply, addf_apply, band_apply, band_apply,
    broadcastInDim_scalar_apply]
  show _ * Ideal.tanh _ + _ = _
  rw [addf_apply, mulf_apply, logistic_apply, addf_apply, band_apply, band_apply, band_apply, band_apply]
  rfl
  all_goals omega

/-- One update of the reference program is the specification's GRU, the two weight matrices transposed. -/
theorem cell_eq (agg h : FVec Ideal S100000x43 .f32) (a4 a5 : FVec Ideal S129x43 .f32) (a6 a7 : FVec Ideal S129 .f32) :
    combine (gates agg a4 a6) (gates h a5 a7) h
      = Cert.Spec.gru agg h (Cert.Spec.tr a4) (Cert.Spec.tr a5) (Cert.Spec.vec a6) (Cert.Spec.vec a7) := by
  rw [gates_eq, gates_eq]
  exact ext2 fun p q => combine_apply _ _ h p q

end Cert.ReferenceIdeal.RefGruCell

end
-- ==== Proof.RefGru0.lean ====
import proofs.«400996_j66279935312387_2_alg».proof.Proof.RefOps
import proofs.«400996_j66279935312387_2_alg».proof.Proof.RefGruCell

noncomputable section

namespace Cert.ReferenceIdeal.RefGru0

open Cert.ReferenceIdeal Cert.ReferenceIdeal.Gen Cert.ReferenceIdeal.Value
open Idealize.ShloMosaic Idealize.ShloMosaic.StableHlo Idealize.SL.Sem

/-- The first round's update stretch leaves the specification's GRU of its aggregate and the states before it. -/
theorem gru_0 (W : Valuation τ sig (Elt Ideal)) :
    (StableHlo.after (opsG0 (F := Ideal)) W (Proc.devRef .tc main_v59) : Cert.Spec.Mat 100000 43)
      = Cert.Spec.gru (W (Proc.devRef .tc main_v21) : Cert.Spec.Mat 100000 43)
          (W (Proc.devRef .tc main_arg0) : Cert.Spec.Mat 100000 43)
          (Cert.Spec.tr (W (Proc.devRef .tc main_arg4) : Cert.Spec.Mat 129 43))
          (Cert.Spec.tr (W (Proc.devRef .tc main_arg5) : Cert.Spec.Mat 129 43))
          (Cert.Spec.vec (W (Proc.devRef .tc main_arg6) : S129.Idx → EReal))
          (Cert.Spec.vec (W (Proc.devRef .tc main_arg7) : S129.Idx → EReal)) := by
  after_results_simp
  exact RefGruCell.cell_eq _ _ _ _ _ _

end Cert.ReferenceIdeal.RefGru0

end
-- ==== Proof.RefGru1.lean ====
import proofs.«400996_j66279935312387_2_alg».proof.Proof.RefOps
import proofs.«400996_j66279935312387_2_alg».proof.Proof.RefGruCell

noncomputable section

namespace Cert.ReferenceIdeal.RefGru1

open Cert.ReferenceIdeal Cert.ReferenceIdeal.Gen Cert.ReferenceIdeal.Value
open Idealize.ShloMosaic Idealize.ShloMosaic.StableHlo Idealize.SL.Sem

/-- The second round's update stretch leaves the specification's GRU of its aggregate and the states before it. -/
theorem gru_1 (W : Valuation τ sig (Elt Ideal)) :
    (StableHlo.after (opsG1 (F := Ideal)) W (Proc.devRef .tc main_v115) : Cert.Spec.Mat 100000 43)
      = Cert.Spec.gru (W (Proc.devRef .tc main_v77) : Cert.Spec.Mat 100000 43)
          (W (Proc.devRef .tc main_v59) : Cert.Spec.Mat 100000 43)
          (Cert.Spec.tr (W (Proc.devRef .tc main_arg4) : Cert.Spec.Mat 129 43))
          (Cert.Spec.tr (W (Proc.devRef .tc main_arg5) : Cert.Spec.Mat 129 43))
          (Cert.Spec.vec (W (Proc.devRef .tc main_arg6) : S129.Idx → EReal))
          (Cert.Spec.vec (W (Proc.devRef .tc main_arg7) : S129.Idx → EReal)) := by
  after_results_simp
  exact RefGruCell.cell_eq _ _ _ _ _ _

end Cert.ReferenceIdeal.RefGru1

end
-- ==== Proof.RefGru2.lean ====
import proofs.«400996_j66279935312387_2_alg».proof.Proof.RefOps
import proofs.«400996_j66279935312387_2_alg».proof.Proof.RefGruCell

noncomputable section

namespace Cert.ReferenceIdeal.RefGru2

open Cert.ReferenceIdeal Cert.ReferenceIdeal.Gen Cert.ReferenceIdeal.Value
open Idealize.ShloMosaic Idealize.ShloMosaic.StableHlo Idealize.SL.Sem

/-- The third round's update stretch leaves the specification's GRU of its aggregate and the states before it. -/
theorem gru_2 (W : Valuation τ sig (Elt Ideal)) :
    (StableHlo.after (opsG2 (F := Ideal)) W (Proc.devRef .tc main_v171) : Cert.Spec.Mat 100000 43)
      = Cert.Spec.gru (W (Proc.devRef .tc main_v133) : Cert.Spec.Mat 100000 43)
          (W (Proc.devRef .tc main_v115) : Cert.Spec.Mat 100000 43)
          (Cert.Spec.tr (W (Proc.devRef .tc main_arg4) : Cert.Spec.Mat 129 43))
          (Cert.Spec.tr (W (Proc.devRef .tc main_arg5) : Cert.Spec.Mat 129 43))
          (Cert.Spec.vec (W (Proc.devRef .tc main_arg6) : S129.Idx → EReal))
          (Cert.Spec.vec (W (Proc.devRef .tc main_arg7) : S129.Idx → EReal)) := by
  after_results_simp
  exact RefGruCell.cell_eq _ _ _ _ _ _

end Cert.ReferenceIdeal.RefGru2

end
-- ==== Proof.RefGru3.lean ====
import proofs.«400996_j66279935312387_2_alg».proof.Proof.RefOps
import proofs.«400996_j66279935312387_2_alg».proof.Proof.RefGruCell

noncomputable section

namespace Cert.ReferenceIdeal.RefGru3

open Cert.ReferenceIdeal Cert.ReferenceIdeal.Gen Cert.ReferenceIdeal.Value
open Idealize.ShloMosaic Idealize.ShloMosaic.StableHlo Idealize.SL.Sem

/-- The fourth round's update stretch leaves the specification's GRU of its aggregate and the states before it. -/
theorem gru_3 (W : Valuation τ sig (Elt Ideal)) :
    (StableHlo.after (opsG3 (F := Ideal)) W (Proc.devRef .tc main_v227) : Cert.Spec.Mat 100000 43)
      = Cert.Spec.gru (W (Proc.devRef .tc main_v189) : Cert.Spec.Mat 100000 43)
          (W (Proc.devRef .tc main_v171) : Cert.Spec.Mat 100000 43)
          (Cert.Spec.tr (W (Proc.devRef .tc main_arg4) : Cert.Spec.Mat 129 43))
          (Cert.Spec.tr (W (Proc.devRef .tc main_arg5) : Cert.Spec.Mat 129 43))
          (Cert.Spec.vec (W (Proc.devRef .tc main_arg6) : S129.Idx → EReal))
          (Cert.Spec.vec (W (Proc.devRef .tc main_arg7) : S129.Idx → EReal)) := by
  after_results_simp
  exact RefGruCell.cell_eq _ _ _ _ _ _

end Cert.ReferenceIdeal.RefGru3

end
-- ==== Proof.RefGru4.lean ====
import proofs.«400996_j66279935312387_2_alg».proof.Proof.RefOps
import proofs.«400996_j66279935312387_2_alg».proof.Proof.RefGruCell

noncomputable section

namespace Cert.ReferenceIdeal.RefGru4

open Cert.ReferenceIdeal Cert.ReferenceIdeal.Gen Cert.ReferenceIdeal.Value
open Idealize.ShloMosaic Idealize.ShloMosaic.StableHlo Idealize.SL.Sem

/-- The fifth round's update stretch leaves the specification's GRU of its aggregate and the states before it. -/
theorem gru_4 (W : Valuation τ sig (Elt Ideal)) :
    (StableHlo.after (opsG4 (F := Ideal)) W (Proc.devRef .tc main_v283) : Cert.Spec.Mat 100000 43)
      = Cert.Spec.gru (W (Proc.devRef .tc main_v245) : Cert.Spec.Mat 100000 43)
          (W (Proc.devRef .tc main_v227) : Cert.Spec.Mat 100000 43)
          (Cert.Spec.tr (W (Proc.devRef .tc main_arg4) : Cert.Spec.Mat 129 43))
          (Cert.Spec.tr (W (Proc.devRef .tc main_arg5) : Cert.Spec.Mat 129 43))
          (Cert.Spec.vec (W (Proc.devRef .tc main_arg6) : S129.Idx → EReal))
          (Cert.Spec.vec (W (Proc.devRef .tc main_arg7) : S129.Idx → EReal)) := by
  after_results_simp
  exact RefGruCell.cell_eq _ _ _ _ _ _

end Cert.ReferenceIdeal.RefGru4

end
-- ==== Proof.RefPool.lean ====
import proofs.«400996_j66279935312387_2_alg».proof.Proof.RefOps
import proofs.«400996_j66279935312387_2_alg».proof.Proof.LibTakeFill
import proofs.«400996_j66279935312387_2_alg».proof.Proof.RefDense

noncomputable section

namespace Cert.ReferenceIdeal.RefPool

open Cert.ReferenceIdeal Cert.ReferenceIdeal.Gen Cert.ReferenceIdeal.Value
open Idealize.ShloMosaic Idealize.ShloMosaic.TcCoe Idealize.ShloMosaic.ValueIdx Idealize.ShloMosaic.StableHlo
open Idealize.ShloMosaic.TakeFill

/-- The pooling stretch adds the rows of the last node states into zeros at the rows their graph numbers name. -/
theorem pool_eq (W : Valuation τ sig (Elt Ideal)) :
    StableHlo.after (opsQ (F := Ideal)) W (Proc.devRef .tc main_v286)
      = Cert.Spec.scat (P := 2048) (W (Proc.devRef .tc main_arg2) : Cert.Spec.IdxVec 100000)
          (W (Proc.devRef .tc main_v283) : Cert.Spec.Mat 100000 43) := by
  after_results
  exact Cert.RefDense.ext2 (scatter_zero_rows_apply _ rfl rfl rfl rfl _ _ _ _)

end Cert.ReferenceIdeal.RefPool

end
-- ==== Proof.RefMlp.lean ====
import proofs.«400996_j66279935312387_2_alg».proof.Proof.RefOps
import proofs.«400996_j66279935312387_2_alg».proof.Proof.RefDense

noncomputable section

namespace Cert.ReferenceIdeal.RefMlp

open Cert.ReferenceIdeal Cert.ReferenceIdeal.Value Idealize.ShloMosaic Idealize.SL.Sem Idealize.ShloMosaic.StableHlo
  Idealize.ShloMosaic.ValueIdx

/-- The perceptron stretch is three dense layers each under max(·, 0), a fourth, and the logistic function entry by entry. -/
theorem mlp_eq (W : Valuation τ sig (Elt Ideal)) :
    StableHlo.after (opsD (F := Ideal)) W (Proc.devRef .tc main_v315)
      = Cert.Spec.mlp (W (Proc.devRef .tc main_v286) : Cert.Spec.Mat 2048 43)
          (Cert.Spec.tr (W (Proc.devRef .tc main_arg8) : Cert.Spec.Mat 392 43))
          (Cert.Spec.vec (W (Proc.devRef .tc main_arg9) : (⟨1, ![392]⟩ : Shape).Idx → EReal))
          (Cert.Spec.tr (W (Proc.devRef .tc main_arg10) : Cert.Spec.Mat 392 392))
          (Cert.Spec.vec (W (Proc.devRef .tc main_arg11) : (⟨1, ![392]⟩ : Shape).Idx → EReal))
          (Cert.Spec.tr (W (Proc.devRef .tc main_arg12) : Cert.Spec.Mat 392 392))
          (Cert.Spec.vec (W (Proc.devRef .tc main_arg13) : (⟨1, ![392]⟩ : Shape).Idx → EReal))
          (Cert.Spec.tr (W (Proc.devRef .tc main_arg14) : Cert.Spec.Mat 138 392))
          (Cert.Spec.vec (W (Proc.devRef .tc main_arg15) : (⟨1, ![138]⟩ : Shape).Idx → EReal)) := by
  after_results_simp
  simp only [TRef.toBuf, TRef.ofBuf, cast_cast, cast_eq]
  rw [Cert.RefDense.dense_eq dot_S2048x43_S43x392_S2048x392_1_0_0_1_n_n rfl, Cert.RefDense.relu_eq,
    Cert.RefDense.dense_eq dot_S2048x392_S392x392_S2048x392_1_0_0_1_n_n rfl, Cert.RefDense.relu_eq,
    Cert.RefDense.dense_eq dot_S2048x392_S392x392_S2048x392_1_0_0_1_n_n rfl, Cert.RefDense.relu_eq,
    Cert.RefDense.dense_eq dot_S2048x392_S392x138_S2048x138_1_0_0_1_n_n rfl]
  funext i
  rw [Cert.RefDense.logistic_apply]
  rfl

end Cert.ReferenceIdeal.RefMlp

end
-- ==== Proof.lean ====
/-
  A gated graph network with a pooled perceptron head, as eleven tiled regions among host operations, against its plain
  reference. Under the precondition every source of the edge table is a row number, so both programs take the same rows;
  round by round both then compute the same sums in the same order: the network of the specification.
-/
import proofs.«400996_j66279935312387_2_alg».proof.Defs
import proofs.«400996_j66279935312387_2_alg».proof.Proof.Gen.Kernel
import proofs.«400996_j66279935312387_2_alg».proof.Proof.Gen.Kernel.Frame
import proofs.«400996_j66279935312387_2_alg».proof.Proof.Gen.KernelIdeal
import proofs.«400996_j66279935312387_2_alg».proof.Proof.Gen.KernelIdeal.Frame
import proofs.«400996_j66279935312387_2_alg».proof.Proof.Gen.ReferenceIdeal
import proofs.«400996_j66279935312387_2_alg».proof.Proof.Gen.Pre_finite_inputs
import proofs.«400996_j66279935312387_2_alg».proof.Proof.RefRun
import proofs.«400996_j66279935312387_2_alg».proof.Proof.RefWrites
import proofs.«400996_j66279935312387_2_alg».proof.Proof.KernelIdealRun
import proofs.«400996_j66279935312387_2_alg».proof.Proof.KValue
import proofs.«400996_j66279935312387_2_alg».proof.Proof.PreRange
import proofs.«400996_j66279935312387_2_alg».proof.Proof.RefValue
import proofs.«400996_j66279935312387_2_alg».proof.Proof.RefPrep
import proofs.«400996_j66279935312387_2_alg».proof.Proof.RefMsg0
import proofs.«400996_j66279935312387_2_alg».proof.Proof.RefMsg1
import proofs.«400996_j66279935312387_2_alg».proof.Proof.RefMsg2
import proofs.«400996_j66279935312387_2_alg».proof.Proof.RefMsg3
import proofs.«400996_j66279935312387_2_alg».proof.Proof.RefMsg4
import proofs.«400996_j66279935312387_2_alg».proof.Proof.RefGru0
import proofs.«400996_j66279935312387_2_alg».proof.Proof.RefGru1
import proofs.«400996_j66279935312387_2_alg».proof.Proof.RefGru2
import proofs.«400996_j66279935312387_2_alg».proof.Proof.RefGru3
import proofs.«400996_j66279935312387_2_alg».proof.Proof.RefGru4
import proofs.«400996_j66279935312387_2_alg».proof.Proof.RefPool
import proofs.«400996_j66279935312387_2_alg».proof.Proof.RefMlp
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

open Cert.ReferenceIdeal Cert.ReferenceIdeal.Value in
/-- The reference is a line of host operations, none of which writes an argument array. -/
theorem frame_ri : Cert.frame_ReferenceIdeal := fun m ρ _ =>
  (θ_run defs _ _).mono (fun r h c =>
    ⟨(h c _).trans (ops_arg0 _), (h c _).trans (ops_arg1 _), (h c _).trans (ops_arg2 _), (h c _).trans (ops_arg3 _),
     (h c _).trans (ops_arg4 _), (h c _).trans (ops_arg5 _), (h c _).trans (ops_arg6 _), (h c _).trans (ops_arg7 _),
     (h c _).trans (ops_arg8 _), (h c _).trans (ops_arg9 _), (h c _).trans (ops_arg10 _), (h c _).trans (ops_arg11 _),
     (h c _).trans (ops_arg12 _), (h c _).trans (ops_arg13 _), (h c _).trans (ops_arg14 _), (h c _).trans (ops_arg15 _)⟩)
    (Cert.ReferenceIdeal.Value.run (F := Ideal) m ρ)

theorem preserves : Cert.preserves_Kernel_KernelIdeal := trivial

open Cert.KernelIdeal in
/-- The value both programs leave: the network of the kernel program's argument arrays. -/
abbrev value (m : (ℓ : Loc nD τ sig) → Buf (Elt Ideal) ℓ) (c : Dev nD) : Cert.Spec.Mat 2048 138 :=
  Cert.Spec.net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

open Cert.ReferenceIdeal Cert.ReferenceIdeal.Value in
theorem algebraic : Cert.algebraic_KernelIdeal_ReferenceIdeal := by
  intro m ρ m' ρ' hpre hagree
  have hs := fun c n => Cert.Proof.PreRange.src_in_range m hpre c n
  refine ⟨fun c => value m c, ?_, ?_⟩
  · exact (θ_run Cert.KernelIdeal.defs _ _).mono (fun r h c =>
      ⟨(h c).1.trans (Cert.KernelIdeal.KValue.result_eq m ρ c (hs c)), (h c).2⟩)
      (Cert.KernelIdeal.Gen.run_main (F := Ideal) m ρ)
  · refine (θ_run defs _ _).mono (fun r h c => ?_) (Cert.ReferenceIdeal.Value.run (F := Ideal) m' ρ')
    obtain ⟨e0, e1, e2, e3, e4, e5, e6, e7, e8, e9, e10, e11, e12, e13, e14, e15⟩ := hagree c
    refine ⟨(h c _).trans ((RefValue.result_eq RefPrep.src_eq RefPrep.dst_eq RefMsg0.msg_0 RefGru0.gru_0 RefMsg1.msg_1 RefGru1.gru_1
        RefMsg2.msg_2 RefGru2.gru_2 RefMsg3.msg_3 RefGru3.gru_3 RefMsg4.msg_4 RefGru4.gru_4 RefPool.pool_eq RefMlp.mlp_eq m' c ?_).trans ?_),
      (h c _).trans (ops_arg0 _), (h c _).trans (ops_arg1 _), (h c _).trans (ops_arg2 _), (h c _).trans (ops_arg3 _),
      (h c _).trans (ops_arg4 _), (h c _).trans (ops_arg5 _), (h c _).trans (ops_arg6 _), (h c _).trans (ops_arg7 _),
      (h c _).trans (ops_arg8 _), (h c _).trans (ops_arg9 _), (h c _).trans (ops_arg10 _), (h c _).trans (ops_arg11 _),
      (h c _).trans (ops_arg12 _), (h c _).trans (ops_arg13 _), (h c _).trans (ops_arg14 _), (h c _).trans (ops_arg15 _)⟩
    · intro n
      rw [e1]
      exact hs c n
    · rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
